-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v188)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x13 : Shape := ⟨2, ![8192, 13]⟩
abbrev S8192x26 : Shape := ⟨2, ![8192, 26]⟩
abbrev S1300013x16 : Shape := ⟨2, ![1300013, 16]⟩
abbrev S208x400 : Shape := ⟨2, ![208, 400]⟩
abbrev S416x400 : Shape := ⟨2, ![416, 400]⟩
abbrev S400x400 : Shape := ⟨2, ![400, 400]⟩
abbrev S4x4x400x400 : Shape := ⟨4, ![4, 4, 400, 400]⟩
abbrev S4x4x400 : Shape := ⟨3, ![4, 4, 400]⟩
abbrev S1600x1 : Shape := ⟨2, ![1600, 1]⟩
abbrev S1 : Shape := ⟨1, ![1]⟩
abbrev S8 : Shape := ⟨1, ![8]⟩
abbrev S10 : Shape := ⟨1, ![10]⟩
abbrev S12 : Shape := ⟨1, ![12]⟩
abbrev S14 : Shape := ⟨1, ![14]⟩
abbrev S_ : Shape := ⟨0, ![]⟩

class Facts : Prop where
  bcast_S_S8192x13 : S_.BroadcastsInDim S8192x13 (![] : Fin 0 → Fin S8192x13.rank)
  reducesTo_S8192x13_S_d0_1 : S8192x13.ReducesTo [0, 1] S_
  h_S_ : 0 < S_.numel
  bcast_S_S1300013x16 : S_.BroadcastsInDim S1300013x16 (![] : Fin 0 → Fin S1300013x16.rank)
  reducesTo_S1300013x16_S_d0_1 : S1300013x16.ReducesTo [0, 1] S_
  bcast_S_S208x400 : S_.BroadcastsInDim S208x400 (![] : Fin 0 → Fin S208x400.rank)
  reducesTo_S208x400_S_d0_1 : S208x400.ReducesTo [0, 1] S_
  bcast_S_S416x400 : S_.BroadcastsInDim S416x400 (![] : Fin 0 → Fin S416x400.rank)
  reducesTo_S416x400_S_d0_1 : S416x400.ReducesTo [0, 1] S_
  bcast_S_S400x400 : S_.BroadcastsInDim S400x400 (![] : Fin 0 → Fin S400x400.rank)
  reducesTo_S400x400_S_d0_1 : S400x400.ReducesTo [0, 1] S_
  bcast_S_S4x4x400x400 : S_.BroadcastsInDim S4x4x400x400 (![] : Fin 0 → Fin S4x4x400x400.rank)
  reducesTo_S4x4x400x400_S_d0_1_2_3 : S4x4x400x400.ReducesTo [0, 1, 2, 3] S_
  bcast_S_S4x4x400 : S_.BroadcastsInDim S4x4x400 (![] : Fin 0 → Fin S4x4x400.rank)
  reducesTo_S4x4x400_S_d0_1_2 : S4x4x400.ReducesTo [0, 1, 2] S_
  bcast_S_S1600x1 : S_.BroadcastsInDim S1600x1 (![] : Fin 0 → Fin S1600x1.rank)
  reducesTo_S1600x1_S_d0_1 : S1600x1.ReducesTo [0, 1] S_
  bcast_S_S1 : S_.BroadcastsInDim S1 (![] : Fin 0 → Fin S1.rank)
  reducesTo_S1_S_d0 : S1.ReducesTo [0] S_
  bcast_S_S8 : S_.BroadcastsInDim S8 (![] : Fin 0 → Fin S8.rank)
  reducesTo_S8_S_d0 : S8.ReducesTo [0] S_
  bcast_S_S10 : S_.BroadcastsInDim S10 (![] : Fin 0 → Fin S10.rank)
  reducesTo_S10_S_d0 : S10.ReducesTo [0] S_
  bcast_S_S12 : S_.BroadcastsInDim S12 (![] : Fin 0 → Fin S12.rank)
  reducesTo_S12_S_d0 : S12.ReducesTo [0] S_
  bcast_S_S14 : S_.BroadcastsInDim S14 (![] : Fin 0 → Fin S14.rank)
  reducesTo_S14_S_d0 : S14.ReducesTo [0] S_

variable [Facts]

def fn_part3 {F : FTy → Type} [FloatOps F] (main_arg12 : FVec F S12 .f32) (main_arg13 : FVec F S14 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S12 .f32 := Host.absf main_arg12
  let main_cst_20 : FVec F S_ .f32 := constant S_ .f32 0x7F800000#32
  let main_v55 : FVec F S12 .f32 := broadcastInDim S12 ![] bcast_S_S12 main_cst_20
  let main_v56 : IVec S12 1 := cmpf .olt main_v54 main_v55
  let main_c_21 : IVec S_ 1 := constantI S_ 1 1#1
  let main_v57 : IVec S_ 1 := (fun x v => Host.reduce IntOp.andi x v reducesTo_S12_S_d0 h_S_) main_v56 main_c_21
  let main_v58 : IVec S_ 1 := andi main_v53 main_v57
  let main_v59 : FVec F S14 .f32 := Host.absf main_arg13
  let main_cst_22 : FVec F S_ .f32 := constant S_ .f32 0x7F800000#32
  let main_v60 : FVec F S14 .f32 := broadcastInDim S14 ![] bcast_S_S14 main_cst_22
  let main_v61 : IVec S14 1 := cmpf .olt main_v59 main_v60
  let main_c_23 : IVec S_ 1 := constantI S_ 1 1#1
  let main_v62 : IVec S_ 1 := (fun x v => Host.reduce IntOp.andi x v reducesTo_S14_S_d0 h_S_) main_v61 main_c_23
  let main_v63 : IVec S_ 1 := andi main_v58 main_v62
  main_v63

def fn_part2 {F : FTy → Type} [FloatOps F] (main_arg8 : FVec F S1600x1 .f32) (main_arg9 : FVec F S1 .f32) (main_arg10 : FVec F S8 .f32) (main_arg11 : FVec F S10 .f32) (main_arg12 : FVec F S12 .f32) (main_arg13 : FVec F S14 .f32) (main_v33 : IVec S_ 1) : IVec S_ 1 :=
  let main_v34 : FVec F S1600x1 .f32 := Host.absf main_arg8
  let main_cst_12 : FVec F S_ .f32 := constant S_ .f32 0x7F800000#32
  let main_v35 : FVec F S1600x1 .f32 := broadcastInDim S1600x1 ![] bcast_S_S1600x1 main_cst_12
  let main_v36 : IVec S1600x1 1 := cmpf .olt main_v34 main_v35
  let main_c_13 : IVec S_ 1 := constantI S_ 1 1#1
  let main_v37 : IVec S_ 1 := (fun x v => Host.reduce IntOp.andi x v reducesTo_S1600x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_arg12 main_arg13 main_v48 main_v49 main_v50

def fn_part1 {F : FTy → Type} [FloatOps F] (main_arg5 : FVec F S400x400 .f32) (main_arg6 : FVec F S4x4x400x400 .f32) (main_arg7 : FVec F S4x4x400 .f32) (main_arg8 : FVec F S1600x1 .f32) (main_arg9 : FVec F S1 .f32) (main_arg10 : FVec F S8 .f32) (main_arg11 : FVec F S10 .f32) (main_arg12 : FVec F S12 .f32) (main_arg13 : FVec F S14 .f32) (main_v13 : IVec S_ 1) (main_v16 : IVec S416x400 1) : IVec S_ 1 :=
  let main_c_5 : IVec S_ 1 := constantI S_ 1 1#1
  let main_v17 : IVec S_ 1 := (fun x v => Host.reduce IntOp.andi x v reducesTo_S416x400_S_d0_1 h_S_) main_v16 main_c_5
  let main_v18 : IVec S_ 1 := andi main_v13 main_v17
  let main_v19 : FVec F S400x400 .f32 := Host.absf main_arg5
  let main_cst_6 : FVec F S_ .f32 := constant S_ .f32 0x7F800000#32
  let main_v20 : FVec F S400x400 .f32 := broadcastInDim S400x400 ![] bcast_S_S400x400 main_cst_6
  let main_v21 : IVec S400x400 1 := cmpf .olt main_v19 main_v20
  let main_c_7 : IVec S_ 1 := constantI S_ 1 1#1
  let main_v22 : IVec S_ 1 := (fun x v => Host.reduce IntOp.andi x v reducesTo_S400x400_S_d0_1 h_S_) main_v21 main_c_7
  let main_v23 : IVec S_ 1 := andi main_v18 main_v22
  let main_v24 : FVec F S4x4x400x400 .f32 := Host.absf main_arg6
  let main_cst_8 : FVec F S_ .f32 := constant S_ .f32 0x7F800000#32
  let main_v25 : FVec F S4x4x400x400 .f32 := broadcastInDim S4x4x400x400 ![] bcast_S_S4x4x400x400 main_cst_8
  let main_v26 : IVec S4x4x400x400 1 := cmpf .olt main_v24 main_v25
  let main_c_9 : IVec S_ 1 := constantI S_ 1 1#1
  let main_v27 : IVec S_ 1 := (fun x v => Host.reduce IntOp.andi x v reducesTo_S4x4x400x400_S_d0_1_2_3 h_S_) main_v26 main_c_9
  let main_v28 : IVec S_ 1 := andi main_v23 main_v27
  let main_v29 : FVec F S4x4x400 .f32 := Host.absf main_arg7
  let main_cst_10 : FVec F S_ .f32 := constant S_ .f32 0x7F800000#32
  let main_v30 : FVec F S4x4x400 .f32 := broadcastInDim S4x4x400 ![] bcast_S_S4x4x400 main_cst_10
  let main_v31 : IVec S4x4x400 1 := cmpf .olt main_v29 main_v30
  let main_c_11 : IVec S_ 1 := constantI S_ 1 1#1
  let main_v32 : IVec S_ 1 := (fun x v => Host.reduce IntOp.andi x v reducesTo_S4x4x400_S_d0_1_2 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S8192x13 .f32) (main_arg1 : IVec S8192x26 32) (main_arg2 : FVec F S1300013x16 .f32) (main_arg3 : FVec F S208x400 .f32) (main_arg4 : FVec F S416x400 .f32) (main_arg5 : FVec F S400x400 .f32) (main_arg6 : FVec F S4x4x400x400 .f32) (main_arg7 : FVec F S4x4x400 .f32) (main_arg8 : FVec F S1600x1 .f32) (main_arg9 : FVec F S1 .f32) (main_arg10 : FVec F S8 .f32) (main_arg11 : FVec F S10 .f32) (main_arg12 : FVec F S12 .f32) (main_arg13 : FVec F S14 .f32) : IVec S_ 1 :=
  let main_v0 : FVec F S8192x13 .f32 := Host.absf main_arg0
  let main_cst : FVec F S_ .f32 := constant S_ .f32 0x7F800000#32
  let main_v1 : FVec F S8192x13 .f32 := broadcastInDim S8192x13 ![] bcast_S_S8192x13 main_cst
  let main_v2 : IVec S8192x13 1 := cmpf .olt main_v0 main_v1
  let main_c : IVec S_ 1 := constantI S_ 1 1#1
  let main_v3 : IVec S_ 1 := (fun x v => Host.reduce IntOp.andi x v reducesTo_S8192x13_S_d0_1 h_S_) main_v2 main_c
  let main_v4 : FVec F S1300013x16 .f32 := Host.absf main_arg2
  let main_cst_0 : FVec F S_ .f32 := constant S_ .f32 0x7F800000#32
  let main_v5 : FVec F S1300013x16 .f32 := broadcastInDim S1300013x16 ![] bcast_S_S1300013x16 main_cst_0
  let main_v6 : IVec S1300013x16 1 := cmpf .olt main_v4 main_v5
  let main_c_1 : IVec S_ 1 := constantI S_ 1 1#1
  let main_v7 : IVec S_ 1 := (fun x v => Host.reduce IntOp.andi x v reducesTo_S1300013x16_S_d0_1 h_S_) main_v6 main_c_1
  let main_v8 : IVec S_ 1 := andi main_v3 main_v7
  let main_v9 : FVec F S208x400 .f32 := Host.absf main_arg3
  let main_cst_2 : FVec F S_ .f32 := constant S_ .f32 0x7F800000#32
  let main_v10 : FVec F S208x400 .f32 := broadcastInDim S208x400 ![] bcast_S_S208x400 main_cst_2
  let main_v11 : IVec S208x400 1 := cmpf .olt main_v9 main_v10
  let main_c_3 : IVec S_ 1 := constantI S_ 1 1#1
  let main_v12 : IVec S_ 1 := (fun x v => Host.reduce IntOp.andi x v reducesTo_S208x400_S_d0_1 h_S_) main_v11 main_c_3
  let main_v13 : IVec S_ 1 := andi main_v8 main_v12
  let main_v14 : FVec F S416x400 .f32 := Host.absf main_arg4
  let main_cst_4 : FVec F S_ .f32 := constant S_ .f32 0x7F800000#32
  let main_v15 : FVec F S416x400 .f32 := broadcastInDim S416x400 ![] bcast_S_S416x400 main_cst_4
  let main_v16 : IVec S416x400 1 := cmpf .olt main_v14 main_v15
  fn_part1 (F := F) main_arg5 main_arg6 main_arg7 main_arg8 main_arg9 main_arg10 main_arg11 main_arg12 main_arg13 main_v13 main_v16
-- ==== Kernel.lean ====
abbrev S8192x13 : Shape := ⟨2, ![8192, 13]⟩
abbrev S8192x26 : Shape := ⟨2, ![8192, 26]⟩
abbrev S1300013x16 : Shape := ⟨2, ![1300013, 16]⟩
abbrev S208x400 : Shape := ⟨2, ![208, 400]⟩
abbrev S416x400 : Shape := ⟨2, ![416, 400]⟩
abbrev S400x400 : Shape := ⟨2, ![400, 400]⟩
abbrev S4x4x400x400 : Shape := ⟨4, ![4, 4, 400, 400]⟩
abbrev S4x4x400 : Shape := ⟨3, ![4, 4, 400]⟩
abbrev S1600x1 : Shape := ⟨2, ![1600, 1]⟩
abbrev S1 : Shape := ⟨1, ![1]⟩
abbrev S8 : Shape := ⟨1, ![8]⟩
abbrev S10 : Shape := ⟨1, ![10]⟩
abbrev S12 : Shape := ⟨1, ![12]⟩
abbrev S14 : Shape := ⟨1, ![14]⟩
abbrev S26 : Shape := ⟨1, ![26]⟩
abbrev S13x16 : Shape := ⟨2, ![13, 16]⟩
abbrev S1x13x16 : Shape := ⟨3, ![1, 13, 16]⟩
abbrev S8192x13x1 : Shape := ⟨3, ![8192, 13, 1]⟩
abbrev S8192x13x16 : Shape := ⟨3, ![8192, 13, 16]⟩
abbrev S1x26 : Shape := ⟨2, ![1, 26]⟩
abbrev S_ : Shape := ⟨0, ![]⟩
abbrev S8192x26x1 : Shape := ⟨3, ![8192, 26, 1]⟩
abbrev S8192x26x16 : Shape := ⟨3, ![8192, 26, 16]⟩
abbrev S8192x208 : Shape := ⟨2, ![8192, 208]⟩
abbrev S8192x416 : Shape := ⟨2, ![8192, 416]⟩
abbrev S2 : Shape := ⟨1, ![2]⟩
abbrev S4 : Shape := ⟨1, ![4]⟩
abbrev S1x1x400x400 : Shape := ⟨4, ![1, 1, 400, 400]⟩
abbrev S1x1x400 : Shape := ⟨3, ![1, 1, 400]⟩
abbrev S400 : Shape := ⟨1, ![400]⟩
abbrev S1x400 : Shape := ⟨2, ![1, 400]⟩
abbrev S8192x400 : Shape := ⟨2, ![8192, 400]⟩
abbrev S1024x208 : Shape := ⟨2, ![1024, 208]⟩
abbrev S1024x416 : Shape := ⟨2, ![1024, 416]⟩
abbrev S1024x400 : Shape := ⟨2, ![1024, 400]⟩
abbrev S3 : Shape := ⟨1, ![3]⟩
abbrev S5 : Shape := ⟨1, ![5]⟩
abbrev S8192x1600 : Shape := ⟨2, ![8192, 1600]⟩
abbrev S1x1 : Shape := ⟨2, ![1, 1]⟩
abbrev S8192x1 : Shape := ⟨2, ![8192, 1]⟩
abbrev S512x1600 : Shape := ⟨2, ![512, 1600]⟩
abbrev S512x1 : Shape := ⟨2, ![512, 1]⟩

abbrev nBuf : Space → Nat
  | .hbm => 225
  | .vmem => 46
  | .smem => 0
  | _ => 0

abbrev hbmTy0_0 (i : Nat) : BufTy := match i % 128 with
  | 0 => ⟨S8192x13, .f32⟩
  | 1 => ⟨S8192x26, .i32⟩
  | 2 => ⟨S1300013x16, .f32⟩
  | 3 => ⟨S208x400, .f32⟩
  | 4 => ⟨S416x400, .f32⟩
  | 5 => ⟨S400x400, .f32⟩
  | 6 => ⟨S4x4x400x400, .f32⟩
  | 7 => ⟨S4x4x400, .f32⟩
  | 8 => ⟨S1600x1, .f32⟩
  | 9 => ⟨S1, .f32⟩
  | 10 => ⟨S8, .f32⟩
  | 11 => ⟨S10, .f32⟩
  | 12 => ⟨S12, .f32⟩
  | 13 => ⟨S14, .f32⟩
  | 14 => ⟨S26, .i32⟩
  | 15 => ⟨S13x16, .f32⟩
  | 16 => ⟨S1x13x16, .f32⟩
  | 17 => ⟨S8192x13x1, .f32⟩
  | 18 => ⟨S8192x13x16, .f32⟩
  | 19 => ⟨S8192x13x16, .f32⟩
  | 20 => ⟨S8192x13x16, .f32⟩
  | 21 => ⟨S1x26, .i32⟩
  | 22 => ⟨S8192x26, .i32⟩
  | 23 => ⟨S8192x26, .i32⟩
  | 24 => ⟨S_, .i32⟩
  | 25 => ⟨S8192x26, .i32⟩
  | 26 => ⟨S8192x26, .i1⟩
  | 27 => ⟨S_, .i32⟩
  | 28 => ⟨S8192x26, .i32⟩
  | 29 => ⟨S8192x26, .i32⟩
  | 30 => ⟨S8192x26, .i32⟩
  | 31 => ⟨S8192x26x1, .i32⟩
  | 32 => ⟨S8192x26x16, .f32⟩
  | 33 => ⟨S8192x208, .f32⟩
  | 34 => ⟨S8192x416, .f32⟩
  | 35 => ⟨S8192x13x16, .f32⟩
  | 36 => ⟨S_, .f32⟩
  | 37 => ⟨S_, .f32⟩
  | 38 => ⟨S_, .f32⟩
  | 39 => ⟨S8192x26x16, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S208x400, .bf16⟩
  | 47 => ⟨S416x400, .bf16⟩
  | 48 => ⟨S400x400, .bf16⟩
  | 49 => ⟨S2, .f32⟩
  | 50 => ⟨S2, .f32⟩
  | 51 => ⟨S4, .f32⟩
  | 52 => ⟨S1, .f32⟩
  | 53 => ⟨S_, .f32⟩
  | 54 => ⟨S_, .f32⟩
  | 55 => ⟨S_, .f32⟩
  | 56 => ⟨S1, .f32⟩
  | 57 => ⟨S_, .f32⟩
  | 58 => ⟨S_, .f32⟩
  | 59 => ⟨S1, .f32⟩
  | 60 => ⟨S_, .f32⟩
  | 61 => ⟨S_, .f32⟩
  | 62 => ⟨S_, .f32⟩
  | 63 => ⟨S1, .f32⟩
  | 64 => ⟨S_, .f32⟩
  | 65 => ⟨S_, .f32⟩
  | 66 => ⟨S1, .f32⟩
  | 67 => ⟨S_, .f32⟩
  | 68 => ⟨S_, .f32⟩
  | 69 => ⟨S_, .f32⟩
  | 70 => ⟨S1, .f32⟩
  | 71 => ⟨S_, .f32⟩
  | 72 => ⟨S_, .f32⟩
  | 73 => ⟨S8192x208, .f32⟩
  | 74 => ⟨S8192x208, .f32⟩
  | 75 => ⟨S8192x208, .f32⟩
  | 76 => ⟨S8192x208, .f32⟩
  | 77 => ⟨S8192x416, .f32⟩
  | 78 => ⟨S8192x416, .f32⟩
  | 79 => ⟨S8192x416, .f32⟩
  | 80 => ⟨S8192x416, .f32⟩
  | 81 => ⟨S1x1x400x400, .f32⟩
  | 82 => ⟨S400x400, .f32⟩
  | 83 => ⟨S400x400, .bf16⟩
  | 84 => ⟨S1x1x400, .f32⟩
  | 85 => ⟨S400, .f32⟩
  | 86 => ⟨S1x400, .f32⟩
  | 87 => ⟨S8192x400, .f32⟩
  | 88 => ⟨S8192x400, .f32⟩
  | 89 => ⟨S8192x400, .f32⟩
  | 90 => ⟨S8192x400, .f32⟩
  | 91 => ⟨S8192x400, .f32⟩
  | 92 => ⟨S3, .f32⟩
  | 93 => ⟨S3, .f32⟩
  | 94 => ⟨S4, .f32⟩
  | 95 => ⟨S1, .f32⟩
  | 96 => ⟨S_, .f32⟩
  | 97 => ⟨S_, .f32⟩
  | 98 => ⟨S_, .f32⟩
  | 99 => ⟨S1, .f32⟩
  | 100 => ⟨S_, .f32⟩
  | 101 => ⟨S_, .f32⟩
  | 102 => ⟨S1, .f32⟩
  | 103 => ⟨S_, .f32⟩
  | 104 => ⟨S_, .f32⟩
  | 105 => ⟨S_, .f32⟩
  | 106 => ⟨S1, .f32⟩
  | 107 => ⟨S_, .f32⟩
  | 108 => ⟨S_, .f32⟩
  | 109 => ⟨S1, .f32⟩
  | 110 => ⟨S_, .f32⟩
  | 111 => ⟨S_, .f32⟩
  | 112 => ⟨S_, .f32⟩
  | 113 => ⟨S1, .f32⟩
  | 114 => ⟨S_, .f32⟩
  | 115 => ⟨S_, .f32⟩
  | 116 => ⟨S8192x416, .f32⟩
  | 117 => ⟨S8192x416, .f32⟩
  | 118 => ⟨S8192x416, .f32⟩
  | 119 => ⟨S8192x416, .f32⟩
  | 120 => ⟨S8192x400, .f32⟩
  | 121 => ⟨S8192x400, .f32⟩
  | 122 => ⟨S8192x400, .f32⟩
  | 123 => ⟨S8192x400, .f32⟩
  | 124 => ⟨S1x1x400x400, .f32⟩
  | 125 => ⟨S400x400, .f32⟩
  | 126 => ⟨S400x400, .bf16⟩
  | 127 => ⟨S1x1x400, .f32⟩
  | _ => ⟨S8192x13, .f32⟩

abbrev hbmTy0_1 (i : Nat) : BufTy := match i % 128 with
  | 0 => ⟨S400, .f32⟩
  | 1 => ⟨S1x400, .f32⟩
  | 2 => ⟨S8192x400, .f32⟩
  | 3 => ⟨S8192x400, .f32⟩
  | 4 => ⟨S8192x400, .f32⟩
  | 5 => ⟨S8192x400, .f32⟩
  | 6 => ⟨S8192x400, .f32⟩
  | 7 => ⟨S4, .f32⟩
  | 8 => ⟨S4, .f32⟩
  | 9 => ⟨S4, .f32⟩
  | 10 => ⟨S1, .f32⟩
  | 11 => ⟨S_, .f32⟩
  | 12 => ⟨S_, .f32⟩
  | 13 => ⟨S_, .f32⟩
  | 14 => ⟨S1, .f32⟩
  | 15 => ⟨S_, .f32⟩
  | 16 => ⟨S_, .f32⟩
  | 17 => ⟨S1, .f32⟩
  | 18 => ⟨S_, .f32⟩
  | 19 => ⟨S_, .f32⟩
  | 20 => ⟨S_, .f32⟩
  | 21 => ⟨S1, .f32⟩
  | 22 => ⟨S_, .f32⟩
  | 23 => ⟨S_, .f32⟩
  | 24 => ⟨S1, .f32⟩
  | 25 => ⟨S_, .f32⟩
  | 26 => ⟨S_, .f32⟩
  | 27 => ⟨S_, .f32⟩
  | 28 => ⟨S1, .f32⟩
  | 29 => ⟨S_, .f32⟩
  | 30 => ⟨S_, .f32⟩
  | 31 => ⟨S8192x416, .f32⟩
  | 32 => ⟨S8192x416, .f32⟩
  | 33 => ⟨S8192x416, .f32⟩
  | 34 => ⟨S8192x416, .f32⟩
  | 35 => ⟨S8192x400, .f32⟩
  | 36 => ⟨S8192x400, .f32⟩
  | 37 => ⟨S8192x400, .f32⟩
  | 38 => ⟨S8192x400, .f32⟩
  | 39 => ⟨S1x1x400x400, .f32⟩
  | 40 => ⟨S400x400, .f32⟩
  | 41 => ⟨S400x400, .bf16⟩
  | 42 => ⟨S1x1x400, .f32⟩
  | 43 => ⟨S400, .f32⟩
  | 44 => ⟨S1x400, .f32⟩
  | 45 => ⟨S8192x400, .f32⟩
  | 46 => ⟨S8192x400, .f32⟩
  | 47 => ⟨S8192x400, .f32⟩
  | 48 => ⟨S8192x400, .f32⟩
  | 49 => ⟨S8192x400, .f32⟩
  | 50 => ⟨S5, .f32⟩
  | 51 => ⟨S5, .f32⟩
  | 52 => ⟨S4, .f32⟩
  | 53 => ⟨S1, .f32⟩
  | 54 => ⟨S_, .f32⟩
  | 55 => ⟨S_, .f32⟩
  | 56 => ⟨S_, .f32⟩
  | 57 => ⟨S1, .f32⟩
  | 58 => ⟨S_, .f32⟩
  | 59 => ⟨S_, .f32⟩
  | 60 => ⟨S1, .f32⟩
  | 61 => ⟨S_, .f32⟩
  | 62 => ⟨S_, .f32⟩
  | 63 => ⟨S_, .f32⟩
  | 64 => ⟨S1, .f32⟩
  | 65 => ⟨S_, .f32⟩
  | 66 => ⟨S_, .f32⟩
  | 67 => ⟨S1, .f32⟩
  | 68 => ⟨S_, .f32⟩
  | 69 => ⟨S_, .f32⟩
  | 70 => ⟨S_, .f32⟩
  | 71 => ⟨S1, .f32⟩
  | 72 => ⟨S_, .f32⟩
  | 73 => ⟨S_, .f32⟩
  | 74 => ⟨S8192x416, .f32⟩
  | 75 => ⟨S8192x416, .f32⟩
  | 76 => ⟨S8192x416, .f32⟩
  | 77 => ⟨S8192x416, .f32⟩
  | 78 => ⟨S8192x400, .f32⟩
  | 79 => ⟨S8192x400, .f32⟩
  | 80 => ⟨S8192x400, .f32⟩
  | 81 => ⟨S8192x400, .f32⟩
  | 82 => ⟨S1x1x400x400, .f32⟩
  | 83 => ⟨S400x400, .f32⟩
  | 84 => ⟨S400x400, .bf16⟩
  | 85 => ⟨S1x1x400, .f32⟩
  | 86 => ⟨S400, .f32⟩
  | 87 => ⟨S1x400, .f32⟩
  | 88 => ⟨S8192x400, .f32⟩
  | 89 => ⟨S8192x400, .f32⟩
  | 90 => ⟨S8192x400, .f32⟩
  | 91 => ⟨S8192x400, .f32⟩
  | 92 => ⟨S8192x400, .f32⟩
  | 93 => ⟨S8192x1600, .f32⟩
  | 94 => ⟨S1600x1, .bf16⟩
  | 95 => ⟨S1x1, .f32⟩
  | 96 => ⟨S8192x1, .f32⟩
  | _ => ⟨S8192x13, .f32⟩

abbrev hbmTy (i : Nat) : BufTy := match i / 128 with
  | 0 => hbmTy0_0 i
  | 1 => hbmTy0_1 i
  | _ => ⟨S8192x13, .f32⟩

abbrev bufTy : (tb : Table) → Fin (tcTables nBuf tb) → BufTy
  | .hbm, ⟨i, _⟩ => hbmTy i
  | .local _ .vmem, ⟨0, _⟩ => ⟨S1024x208, .f32⟩
  | .local _ .vmem, ⟨1, _⟩ => ⟨S1024x208, .f32⟩
  | .local _ .vmem, ⟨2, _⟩ => ⟨S1024x416, .f32⟩
  | .local _ .vmem, ⟨3, _⟩ => ⟨S1024x416, .f32⟩
  | .local _ .vmem, ⟨4, _⟩ => ⟨S208x400, .bf16⟩
  | .local _ .vmem, ⟨5, _⟩ => ⟨S416x400, .bf16⟩
  | .local _ .vmem, ⟨6, _⟩ => ⟨S400x400, .bf16⟩
  | .local _ .vmem, ⟨7, _⟩ => ⟨S1x400, .f32⟩
  | .local _ .vmem, ⟨8, _⟩ => ⟨S1024x400, .f32⟩
  | .local _ .vmem, ⟨9, _⟩ => ⟨S1024x400, .f32⟩
  | .local _ .vmem, ⟨10, _⟩ => ⟨S1024x416, .f32⟩
  | .local _ .vmem, ⟨11, _⟩ => ⟨S1024x416, .f32⟩
  | .local _ .vmem, ⟨12, _⟩ => ⟨S1024x400, .f32⟩
  | .local _ .vmem, ⟨13, _⟩ => ⟨S1024x400, .f32⟩
  | .local _ .vmem, ⟨14, _⟩ => ⟨S416x400, .bf16⟩
  | .local _ .vmem, ⟨15, _⟩ => ⟨S400x400, .bf16⟩
  | .local _ .vmem, ⟨16, _⟩ => ⟨S400x400, .bf16⟩
  | .local _ .vmem, ⟨17, _⟩ => ⟨S1x400, .f32⟩
  | .local _ .vmem, ⟨18, _⟩ => ⟨S1024x400, .f32⟩
  | .local _ .vmem, ⟨19, _⟩ => ⟨S1024x400, .f32⟩
  | .local _ .vmem, ⟨20, _⟩ => ⟨S1024x416, .f32⟩
  | .local _ .vmem, ⟨21, _⟩ => ⟨S1024x416, .f32⟩
  | .local _ .vmem, ⟨22, _⟩ => ⟨S1024x400, .f32⟩
  | .local _ .vmem, ⟨23, _⟩ => ⟨S1024x400, .f32⟩
  | .local _ .vmem, ⟨24, _⟩ => ⟨S416x400, .bf16⟩
  | .local _ .vmem, ⟨25, _⟩ => ⟨S400x400, .bf16⟩
  | .local _ .vmem, ⟨26, _⟩ => ⟨S400x400, .bf16⟩
  | .local _ .vmem, ⟨27, _⟩ => ⟨S1x400, .f32⟩
  | .local _ .vmem, ⟨28, _⟩ => ⟨S1024x400, .f32⟩
  | .local _ .vmem, ⟨29, _⟩ => ⟨S1024x400, .f32⟩
  | .local _ .vmem, ⟨30, _⟩ => ⟨S1024x416, .f32⟩
  | .local _ .vmem, ⟨31, _⟩ => ⟨S1024x416, .f32⟩
  | .local _ .vmem, ⟨32, _⟩ => ⟨S1024x400, .f32⟩
  | .local _ .vmem, ⟨33, _⟩ => ⟨S1024x400, .f32⟩
  | .local _ .vmem, ⟨34, _⟩ => ⟨S416x400, .bf16⟩
  | .local _ .vmem, ⟨35, _⟩ => ⟨S400x400, .bf16⟩
  | .local _ .vmem, ⟨36, _⟩ => ⟨S400x400, .bf16⟩
  | .local _ .vmem, ⟨37, _⟩ => ⟨S1x400, .f32⟩
  | .local _ .vmem, ⟨38, _⟩ => ⟨S1024x400, .f32⟩
  | .local _ .vmem, ⟨39, _⟩ => ⟨S1024x400, .f32⟩
  | .local _ .vmem, ⟨40, _⟩ => ⟨S512x1600, .f32⟩
  | .local _ .vmem, ⟨41, _⟩ => ⟨S512x1600, .f32⟩
  | .local _ .vmem, ⟨42, _⟩ => ⟨S1600x1, .bf16⟩
  | .local _ .vmem, ⟨43, _⟩ => ⟨S1x1, .f32⟩
  | .local _ .vmem, ⟨44, _⟩ => ⟨S512x1, .f32⟩
  | .local _ .vmem, ⟨45, _⟩ => ⟨S512x1, .f32⟩
  | _, _ => ⟨S8192x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v18 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_7 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_8 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_9 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_10 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_11 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_12 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_13 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x208 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x416 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S208x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S416x400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400x400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S416x400 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S400x400 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S400x400 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x400 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x400 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x416 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x400 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S416x400 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S400x400 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S400x400 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x400 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x400 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x416 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x400 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S416x400 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S400x400 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S400x400 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x400 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x400 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1600 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1600x1 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S1300013x16_S13x16_0_0 : S1300013x16.Slices ![0, 0] S13x16
  bcast_S13x16_S1x13x16_1_2 : S13x16.BroadcastsInDim S1x13x16 (![1, 2] : Fin 2 → Fin S1x13x16.rank)
  bcast_S8192x13_S8192x13x1_0_1 : S8192x13.BroadcastsInDim S8192x13x1 (![0, 1] : Fin 2 → Fin S8192x13x1.rank)
  bcast_S1x13x16_S8192x13x16_0_1_2 : S1x13x16.BroadcastsInDim S8192x13x16 (![0, 1, 2] : Fin 3 → Fin S8192x13x16.rank)
  bcast_S8192x13x1_S8192x13x16_0_1_2 : S8192x13x1.BroadcastsInDim S8192x13x16 (![0, 1, 2] : Fin 3 → Fin S8192x13x16.rank)
  bcast_S26_S1x26_1 : S26.BroadcastsInDim S1x26 (![1] : Fin 1 → Fin S1x26.rank)
  bcast_S1x26_S8192x26_0_1 : S1x26.BroadcastsInDim S8192x26 (![0, 1] : Fin 2 → Fin S8192x26.rank)
  bcast_S_S8192x26 : S_.BroadcastsInDim S8192x26 (![] : Fin 0 → Fin S8192x26.rank)
  bcast_S8192x26_S8192x26x1_0_1 : S8192x26.BroadcastsInDim S8192x26x1 (![0, 1] : Fin 2 → Fin S8192x26x1.rank)
  shapeCasts_S8192x13x16_S8192x208 : S8192x13x16.ShapeCasts S8192x208
  shapeCasts_S8192x26x16_S8192x416 : S8192x26x16.ShapeCasts S8192x416
  reducesTo_S8192x13x16_S_d0_1_2 : S8192x13x16.ReducesTo [0, 1, 2] S_
  h_S_ : 0 < S_.numel
  reducesTo_S8192x26x16_S_d0_1_2 : S8192x26x16.ReducesTo [0, 1, 2] S_
  bitsLt_bf16_f32 : FTy.bits .bf16 < FTy.bits .f32
  slices_S8_S2_0 : S8.Slices ![0] S2
  slices_S8_S2_2 : S8.Slices ![2] S2
  slices_S8_S4_4 : S8.Slices ![4] S4
  slices_S2_S1_0 : S2.Slices ![0] S1
  shapeCasts_S1_S_ : S1.ShapeCasts S_
  reducesTo_S2_S_d0 : S2.ReducesTo [0] S_
  slices_S2_S1_1 : S2.Slices ![1] S1
  slices_S4_S1_0 : S4.Slices ![0] S1
  reducesTo_S4_S_d0 : S4.ReducesTo [0] S_
  bcast_S_S8192x208 : S_.BroadcastsInDim S8192x208 (![] : Fin 0 → Fin S8192x208.rank)
  bcast_S_S8192x416 : S_.BroadcastsInDim S8192x416 (![] : Fin 0 → Fin S8192x416.rank)
  slices_S4x4x400x400_S1x1x400x400_0_0_0_0 : S4x4x400x400.Slices ![0, 0, 0, 0] S1x1x400x400
  shapeCasts_S1x1x400x400_S400x400 : S1x1x400x400.ShapeCasts S400x400
  slices_S4x4x400_S1x1x400_0_0_0 : S4x4x400.Slices ![0, 0, 0] S1x1x400
  shapeCasts_S1x1x400_S400 : S1x1x400.ShapeCasts S400
  shapeCasts_S400_S1x400 : S400.ShapeCasts S1x400
  inb_S1024x208_S1024x208_0_0 : ∀ a, (![0, 0] : Fin 2 → Nat) a + S1024x208.size a ≤ S1024x208.size a
  h_S1024x208 : 0 < S1024x208.numel
  shapeCasts_S1024x208_S1024x208 : S1024x208.ShapeCasts S1024x208
  inb_S1024x416_S1024x416_0_0 : ∀ a, (![0, 0] : Fin 2 → Nat) a + S1024x416.size a ≤ S1024x416.size a
  h_S1024x416 : 0 < S1024x416.numel
  shapeCasts_S1024x416_S1024x416 : S1024x416.ShapeCasts S1024x416
  inb_S208x400_S208x400_0_0 : ∀ a, (![0, 0] : Fin 2 → Nat) a + S208x400.size a ≤ S208x400.size a
  h_S208x400 : 0 < S208x400.numel
  shapeCasts_S208x400_S208x400 : S208x400.ShapeCasts S208x400
  inb_S416x400_S416x400_0_0 : ∀ a, (![0, 0] : Fin 2 → Nat) a + S416x400.size a ≤ S416x400.size a
  h_S416x400 : 0 < S416x400.numel
  shapeCasts_S416x400_S416x400 : S416x400.ShapeCasts S416x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S1024x400 : S1x400.Broadcasts S1024x400
  inb_S1024x400_S1024x400_0_0 : ∀ a, (![0, 0] : Fin 2 → Nat) a + S1024x400.size a ≤ S1024x400.size a
  h_S1024x400 : 0 < S1024x400.numel
  bcast_S_S8192x400 : S_.BroadcastsInDim S8192x400 (![] : Fin 0 → Fin S8192x400.rank)
  slices_S10_S3_0 : S10.Slices ![0] S3
  slices_S10_S3_3 : S10.Slices ![3] S3
  slices_S10_S4_6 : S10.Slices ![6] S4
  slices_S3_S1_1 : S3.Slices ![1] S1
  reducesTo_S3_S_d0 : S3.ReducesTo [0] S_
  slices_S3_S1_2 : S3.Slices ![2] S1
  slices_S4_S1_1 : S4.Slices ![1] S1
  slices_S4x4x400x400_S1x1x400x400_1_1_0_0 : S4x4x400x400.Slices ![1, 1, 0, 0] S1x1x400x400
  slices_S4x4x400_S1x1x400_1_1_0 : S4x4x400.Slices ![1, 1, 0] S1x1x400
  shapeCasts_S1024x400_S1024x400 : S1024x400.ShapeCasts S1024x400
  slices_S12_S4_0 : S12.Slices ![0] S4
  slices_S12_S4_4 : S12.Slices ![4] S4
  slices_S12_S4_8 : S12.Slices ![8] S4
  slices_S4_S1_3 : S4.Slices ![3] S1
  slices_S4_S1_2 : S4.Slices ![2] S1
  slices_S4x4x400x400_S1x1x400x400_2_2_0_0 : S4x4x400x400.Slices ![2, 2, 0, 0] S1x1x400x400
  slices_S4x4x400_S1x1x400_2_2_0 : S4x4x400.Slices ![2, 2, 0] S1x1x400
  slices_S14_S5_0 : S14.Slices ![0] S5
  slices_S14_S5_5 : S14.Slices ![5] S5
  slices_S14_S4_10 : S14.Slices ![10] S4
  slices_S5_S1_1 : S5.Slices ![1] S1
  reducesTo_S5_S_d0 : S5.ReducesTo [0] S_
  slices_S5_S1_4 : S5.Slices ![4] S1
  slices_S4x4x400x400_S1x1x400x400_3_3_0_0 : S4x4x400x400.Slices ![3, 3, 0, 0] S1x1x400x400
  slices_S4x4x400_S1x1x400_3_3_0 : S4x4x400.Slices ![3, 3, 0] S1x1x400
  concatenates_S8192x400_S8192x400_S8192x400_S8192x400_S8192x1600_d1 : Shape.Concatenates [S8192x400, S8192x400, S8192x400, S8192x400] S8192x1600 1
  shapeCasts_S1_S1x1 : S1.ShapeCasts S1x1
  inb_S512x1600_S512x1600_0_0 : ∀ a, (![0, 0] : Fin 2 → Nat) a + S512x1600.size a ≤ S512x1600.size a
  h_S512x1600 : 0 < S512x1600.numel
  shapeCasts_S512x1600_S512x1600 : S512x1600.ShapeCasts S512x1600
  inb_S1600x1_S1600x1_0_0 : ∀ a, (![0, 0] : Fin 2 → Nat) a + S1600x1.size a ≤ S1600x1.size a
  h_S1600x1 : 0 < S1600x1.numel
  shapeCasts_S1600x1_S1600x1 : S1600x1.ShapeCasts S1600x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S1300013x16_S8192x26x1_S8192x26x16_2_0_n_n_0_2_116_wf : GatherDims.WF S1300013x16 S8192x26x1 S8192x26x16 [2] [0] [] [0] [] 2 ![1, 16]
  dot_S1024x208_S208x400_S1024x400_1_0_0_1_n_n_wf : DotDims.WF S1024x208 S208x400 S1024x400 [1] [0] [0] [1] [] []
  dot_S1024x416_S416x400_S1024x400_1_0_0_1_n_n_wf : DotDims.WF S1024x416 S416x400 S1024x400 [1] [0] [0] [1] [] []
  dot_S1024x400_S400x400_S1024x400_1_0_0_1_n_n_wf : DotDims.WF S1024x400 S400x400 S1024x400 [1] [0] [0] [1] [] []
  dot_S512x1600_S1600x1_S512x1_1_0_0_1_n_n_wf : DotDims.WF S512x1600 S1600x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x208.size a ≤ S8192x208.size a
  hwx0_0 : ∀ i : grid0.Coords, EltTy.bits .f32 = 32 ∨ (Rect.block (s := S8192x208) S1024x208.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x416.size a ≤ S8192x416.size a
  hwx0_1 : ∀ i : grid0.Coords, EltTy.bits .f32 = 32 ∨ (Rect.block (s := S8192x416) S1024x416.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S208x400.size a ≤ S208x400.size a
  hwx0_2 : ∀ i : grid0.Coords, EltTy.bits .bf16 = 32 ∨ (Rect.block (s := S208x400) S208x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S416x400.size a ≤ S416x400.size a
  hwx0_3 : ∀ i : grid0.Coords, EltTy.bits .bf16 = 32 ∨ (Rect.block (s := S416x400) S416x400.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400x400.size a ≤ S400x400.size a
  hwx0_4 : ∀ i : grid0.Coords, EltTy.bits .bf16 = 32 ∨ (Rect.block (s := S400x400) S400x400.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x400.size a ≤ S1x400.size a
  hwx0_5 : ∀ i : grid0.Coords, EltTy.bits .f32 = 32 ∨ (Rect.block (s := S1x400) S1x400.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x400.size a ≤ S8192x400.size a
  hwx0_6 : ∀ i : grid0.Coords, EltTy.bits .f32 = 32 ∨ (Rect.block (s := S8192x400) S1024x400.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x416.size a ≤ S8192x416.size a
  hwx1_0 : ∀ i : grid1.Coords, EltTy.bits .f32 = 32 ∨ (Rect.block (s := S8192x416) S1024x416.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x400.size a ≤ S8192x400.size a
  hwx1_1 : ∀ i : grid1.Coords, EltTy.bits .f32 = 32 ∨ (Rect.block (s := S8192x400) S1024x400.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S416x400.size a ≤ S416x400.size a
  hwx1_2 : ∀ i : grid1.Coords, EltTy.bits .bf16 = 32 ∨ (Rect.block (s := S416x400) S416x400.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S400x400.size a ≤ S400x400.size a
  hwx1_3 : ∀ i : grid1.Coords, EltTy.bits .bf16 = 32 ∨ (Rect.block (s := S400x400) S400x400.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S400x400.size a ≤ S400x400.size a
  hwx1_4 : ∀ i : grid1.Coords, EltTy.bits .bf16 = 32 ∨ (Rect.block (s := S400x400) S400x400.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x400.size a ≤ S1x400.size a
  hwx1_5 : ∀ i : grid1.Coords, EltTy.bits .f32 = 32 ∨ (Rect.block (s := S1x400) S1x400.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x400.size a ≤ S8192x400.size a
  hwx1_6 : ∀ i : grid1.Coords, EltTy.bits .f32 = 32 ∨ (Rect.block (s := S8192x400) S1024x400.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x416.size a ≤ S8192x416.size a
  hwx2_0 : ∀ i : grid2.Coords, EltTy.bits .f32 = 32 ∨ (Rect.block (s := S8192x416) S1024x416.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x400.size a ≤ S8192x400.size a
  hwx2_1 : ∀ i : grid2.Coords, EltTy.bits .f32 = 32 ∨ (Rect.block (s := S8192x400) S1024x400.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S416x400.size a ≤ S416x400.size a
  hwx2_2 : ∀ i : grid2.Coords, EltTy.bits .bf16 = 32 ∨ (Rect.block (s := S416x400) S416x400.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S400x400.size a ≤ S400x400.size a
  hwx2_3 : ∀ i : grid2.Coords, EltTy.bits .bf16 = 32 ∨ (Rect.block (s := S400x400) S400x400.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S400x400.size a ≤ S400x400.size a
  hwx2_4 : ∀ i : grid2.Coords, EltTy.bits .bf16 = 32 ∨ (Rect.block (s := S400x400) S400x400.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x400.size a ≤ S1x400.size a
  hwx2_5 : ∀ i : grid2.Coords, EltTy.bits .f32 = 32 ∨ (Rect.block (s := S1x400) S1x400.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x400.size a ≤ S8192x400.size a
  hwx2_6 : ∀ i : grid2.Coords, EltTy.bits .f32 = 32 ∨ (Rect.block (s := S8192x400) S1024x400.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x416.size a ≤ S8192x416.size a
  hwx3_0 : ∀ i : grid3.Coords, EltTy.bits .f32 = 32 ∨ (Rect.block (s := S8192x416) S1024x416.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x400.size a ≤ S8192x400.size a
  hwx3_1 : ∀ i : grid3.Coords, EltTy.bits .f32 = 32 ∨ (Rect.block (s := S8192x400) S1024x400.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S416x400.size a ≤ S416x400.size a
  hwx3_2 : ∀ i : grid3.Coords, EltTy.bits .bf16 = 32 ∨ (Rect.block (s := S416x400) S416x400.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S400x400.size a ≤ S400x400.size a
  hwx3_3 : ∀ i : grid3.Coords, EltTy.bits .bf16 = 32 ∨ (Rect.block (s := S400x400) S400x400.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S400x400.size a ≤ S400x400.size a
  hwx3_4 : ∀ i : grid3.Coords, EltTy.bits .bf16 = 32 ∨ (Rect.block (s := S400x400) S400x400.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x400.size a ≤ S1x400.size a
  hwx3_5 : ∀ i : grid3.Coords, EltTy.bits .f32 = 32 ∨ (Rect.block (s := S1x400) S1x400.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x400.size a ≤ S8192x400.size a
  hwx3_6 : ∀ i : grid3.Coords, EltTy.bits .f32 = 32 ∨ (Rect.block (s := S8192x400) S1024x400.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1600.size a ≤ S8192x1600.size a
  hwx4_0 : ∀ i : grid4.Coords, EltTy.bits .f32 = 32 ∨ (Rect.block (s := S8192x1600) S512x1600.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1600x1.size a ≤ S1600x1.size a
  hwx4_1 : ∀ i : grid4.Coords, EltTy.bits .bf16 = 32 ∨ (Rect.block (s := S1600x1) S1600x1.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S8192x1.size a
  hwx4_3 : ∀ i : grid4.Coords, EltTy.bits .f32 = 32 ∨ (Rect.block (s := S8192x1) S512x1.size (cc4_transform_3 i) (hinb4_3 i)).WholeWords (EltTy.packing .f32)

variable [Facts₀]

def gather_S1300013x16_S8192x26x1_S8192x26x16_2_0_n_n_0_2_116 : GatherDims S1300013x16 S8192x26x1 S8192x26x16 where
  offsetDims := [2]
  collapsedSliceDims := [0]
  operandBatchingDims := []
  startIndicesBatchingDims := []
  startIndexMap := [0]
  indexVectorDim := 2
  sliceSizes := ![1, 16]
  wf := gather_S1300013x16_S8192x26x1_S8192x26x16_2_0_n_n_0_2_116_wf
def dot_S1024x208_S208x400_S1024x400_1_0_0_1_n_n : DotDims S1024x208 S208x400 S1024x400 where
  lhsContracting := [1]
  rhsContracting := [0]
  lhsNonContracting := [0]
  rhsNonContracting := [1]
  lhsBatch := []
  rhsBatch := []
  wf := dot_S1024x208_S208x400_S1024x400_1_0_0_1_n_n_wf
def dot_S1024x416_S416x400_S1024x400_1_0_0_1_n_n : DotDims S1024x416 S416x400 S1024x400 where
  lhsContracting := [1]
  rhsContracting := [0]
  lhsNonContracting := [0]
  rhsNonContracting := [1]
  lhsBatch := []
  rhsBatch := []
  wf := dot_S1024x416_S416x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S512x1600_S1600x1_S512x1_1_0_0_1_n_n : DotDims S512x1600 S1600x1 S512x1 where
  lhsContracting := [1]
  rhsContracting := [0]
  lhsNonContracting := [0]
  rhsNonContracting := [1]
  lhsBatch := []
  rhsBatch := []
  wf := dot_S512x1600_S1600x1_S512x1_1_0_0_1_n_n_wf

abbrev win0_0 : Pipeline.Window sig grid0 :=
  Pipeline.Window.ofSpec (Memref.whole main_v49) S1024x208.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S1024x416.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S208x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S416x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S400x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S1024x400.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v89) S1024x416.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S1024x400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S416x400.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S400x400.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v96) S400x400.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S1x400.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v100) S1024x400.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v129) S1024x416.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v133) S1024x400.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S416x400.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S400x400.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v136) S400x400.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v139) S1x400.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v140) S1024x400.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v169) S1024x416.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v173) S1024x400.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S416x400.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S400x400.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v176) S400x400.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v179) S1x400.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v180) S1024x400.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v185) S512x1600.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v186) S1600x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v187) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v188) S512x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x13 : Shape := ⟨2, ![8192, 13]⟩
abbrev S8192x26 : Shape := ⟨2, ![8192, 26]⟩
abbrev S1300013x16 : Shape := ⟨2, ![1300013, 16]⟩
abbrev S208x400 : Shape := ⟨2, ![208, 400]⟩
abbrev S416x400 : Shape := ⟨2, ![416, 400]⟩
abbrev S400x400 : Shape := ⟨2, ![400, 400]⟩
abbrev S4x4x400x400 : Shape := ⟨4, ![4, 4, 400, 400]⟩
abbrev S4x4x400 : Shape := ⟨3, ![4, 4, 400]⟩
abbrev S1600x1 : Shape := ⟨2, ![1600, 1]⟩
abbrev S1 : Shape := ⟨1, ![1]⟩
abbrev S8 : Shape := ⟨1, ![8]⟩
abbrev S10 : Shape := ⟨1, ![10]⟩
abbrev S12 : Shape := ⟨1, ![12]⟩
abbrev S14 : Shape := ⟨1, ![14]⟩
abbrev S26 : Shape := ⟨1, ![26]⟩
abbrev S13x16 : Shape := ⟨2, ![13, 16]⟩
abbrev S1x13x16 : Shape := ⟨3, ![1, 13, 16]⟩
abbrev S8192x13x1 : Shape := ⟨3, ![8192, 13, 1]⟩
abbrev S8192x13x16 : Shape := ⟨3, ![8192, 13, 16]⟩
abbrev S1x26 : Shape := ⟨2, ![1, 26]⟩
abbrev S_ : Shape := ⟨0, ![]⟩
abbrev S8192x26x1 : Shape := ⟨3, ![8192, 26, 1]⟩
abbrev S8192x26x16 : Shape := ⟨3, ![8192, 26, 16]⟩
abbrev S8192x208 : Shape := ⟨2, ![8192, 208]⟩
abbrev S8192x416 : Shape := ⟨2, ![8192, 416]⟩
abbrev S2 : Shape := ⟨1, ![2]⟩
abbrev S4 : Shape := ⟨1, ![4]⟩
abbrev S8192x400 : Shape := ⟨2, ![8192, 400]⟩
abbrev S1x1x400x400 : Shape := ⟨4, ![1, 1, 400, 400]⟩
abbrev S1x1x400 : Shape := ⟨3, ![1, 1, 400]⟩
abbrev S400 : Shape := ⟨1, ![400]⟩
abbrev S1x400 : Shape := ⟨2, ![1, 400]⟩
abbrev S3 : Shape := ⟨1, ![3]⟩
abbrev S5 : Shape := ⟨1, ![5]⟩
abbrev S8192x1600 : Shape := ⟨2, ![8192, 1600]⟩
abbrev S8192x1 : Shape := ⟨2, ![8192, 1]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S8192x13, .f32⟩
  | 1 => ⟨S8192x26, .i32⟩
  | 2 => ⟨S1300013x16, .f32⟩
  | 3 => ⟨S208x400, .f32⟩
  | 4 => ⟨S416x400, .f32⟩
  | 5 => ⟨S400x400, .f32⟩
  | 6 => ⟨S4x4x400x400, .f32⟩
  | 7 => ⟨S4x4x400, .f32⟩
  | 8 => ⟨S1600x1, .f32⟩
  | 9 => ⟨S1, .f32⟩
  | 10 => ⟨S8, .f32⟩
  | 11 => ⟨S10, .f32⟩
  | 12 => ⟨S12, .f32⟩
  | 13 => ⟨S14, .f32⟩
  | 14 => ⟨S26, .i32⟩
  | 15 => ⟨S13x16, .f32⟩
  | 16 => ⟨S1x13x16, .f32⟩
  | 17 => ⟨S8192x13x1, .f32⟩
  | 18 => ⟨S8192x13x16, .f32⟩
  | 19 => ⟨S8192x13x16, .f32⟩
  | 20 => ⟨S8192x13x16, .f32⟩
  | 21 => ⟨S1x26, .i32⟩
  | 22 => ⟨S8192x26, .i32⟩
  | 23 => ⟨S8192x26, .i32⟩
  | 24 => ⟨S_, .i32⟩
  | 25 => ⟨S8192x26, .i32⟩
  | 26 => ⟨S8192x26, .i1⟩
  | 27 => ⟨S_, .i32⟩
  | 28 => ⟨S8192x26, .i32⟩
  | 29 => ⟨S8192x26, .i32⟩
  | 30 => ⟨S8192x26, .i32⟩
  | 31 => ⟨S8192x26x1, .i32⟩
  | 32 => ⟨S8192x26x16, .f32⟩
  | 33 => ⟨S8192x208, .f32⟩
  | 34 => ⟨S8192x416, .f32⟩
  | 35 => ⟨S8192x13x16, .f32⟩
  | 36 => ⟨S_, .f32⟩
  | 37 => ⟨S_, .f32⟩
  | 38 => ⟨S_, .f32⟩
  | 39 => ⟨S8192x26x16, .f32⟩
  | 40 => ⟨S_, .f32⟩
  | 41 => ⟨S_, .f32⟩
  | 42 => ⟨S_, .f32⟩
  | 43 => ⟨S_, .f32⟩
  | 44 => ⟨S2, .f32⟩
  | 45 => ⟨S2, .f32⟩
  | 46 => ⟨S4, .f32⟩
  | 47 => ⟨S1, .f32⟩
  | 48 => ⟨S_, .f32⟩
  | 49 => ⟨S8192x208, .f32⟩
  | 50 => ⟨S8192x208, .f32⟩
  | 51 => ⟨S_, .f32⟩
  | 52 => ⟨S_, .f32⟩
  | 53 => ⟨S1, .f32⟩
  | 54 => ⟨S_, .f32⟩
  | 55 => ⟨S_, .f32⟩
  | 56 => ⟨S8192x208, .f32⟩
  | 57 => ⟨S8192x208, .f32⟩
  | 58 => ⟨S1, .f32⟩
  | 59 => ⟨S_, .f32⟩
  | 60 => ⟨S8192x416, .f32⟩
  | 61 => ⟨S8192x416, .f32⟩
  | 62 => ⟨S_, .f32⟩
  | 63 => ⟨S_, .f32⟩
  | 64 => ⟨S1, .f32⟩
  | 65 => ⟨S_, .f32⟩
  | 66 => ⟨S_, .f32⟩
  | 67 => ⟨S8192x416, .f32⟩
  | 68 => ⟨S8192x416, .f32⟩
  | 69 => ⟨S8192x400, .f32⟩
  | 70 => ⟨S8192x400, .f32⟩
  | 71 => ⟨S8192x400, .f32⟩
  | 72 => ⟨S_, .f32⟩
  | 73 => ⟨S8192x400, .f32⟩
  | 74 => ⟨S8192x400, .f32⟩
  | 75 => ⟨S1x1x400x400, .f32⟩
  | 76 => ⟨S400x400, .f32⟩
  | 77 => ⟨S8192x400, .f32⟩
  | 78 => ⟨S1x1x400, .f32⟩
  | 79 => ⟨S400, .f32⟩
  | 80 => ⟨S1x400, .f32⟩
  | 81 => ⟨S8192x400, .f32⟩
  | 82 => ⟨S8192x400, .f32⟩
  | 83 => ⟨S1, .f32⟩
  | 84 => ⟨S_, .f32⟩
  | 85 => ⟨S8192x400, .f32⟩
  | 86 => ⟨S8192x400, .f32⟩
  | 87 => ⟨S_, .f32⟩
  | 88 => ⟨S_, .f32⟩
  | 89 => ⟨S1, .f32⟩
  | 90 => ⟨S_, .f32⟩
  | 91 => ⟨S_, .f32⟩
  | 92 => ⟨S8192x400, .f32⟩
  | 93 => ⟨S8192x400, .f32⟩
  | 94 => ⟨S3, .f32⟩
  | 95 => ⟨S3, .f32⟩
  | 96 => ⟨S4, .f32⟩
  | 97 => ⟨S1, .f32⟩
  | 98 => ⟨S_, .f32⟩
  | 99 => ⟨S8192x416, .f32⟩
  | 100 => ⟨S8192x416, .f32⟩
  | 101 => ⟨S_, .f32⟩
  | 102 => ⟨S_, .f32⟩
  | 103 => ⟨S1, .f32⟩
  | 104 => ⟨S_, .f32⟩
  | 105 => ⟨S_, .f32⟩
  | 106 => ⟨S8192x416, .f32⟩
  | 107 => ⟨S8192x416, .f32⟩
  | 108 => ⟨S1, .f32⟩
  | 109 => ⟨S_, .f32⟩
  | 110 => ⟨S8192x400, .f32⟩
  | 111 => ⟨S8192x400, .f32⟩
  | 112 => ⟨S_, .f32⟩
  | 113 => ⟨S_, .f32⟩
  | 114 => ⟨S1, .f32⟩
  | 115 => ⟨S_, .f32⟩
  | 116 => ⟨S_, .f32⟩
  | 117 => ⟨S8192x400, .f32⟩
  | 118 => ⟨S8192x400, .f32⟩
  | 119 => ⟨S8192x400, .f32⟩
  | 120 => ⟨S8192x400, .f32⟩
  | 121 => ⟨S8192x400, .f32⟩
  | 122 => ⟨S_, .f32⟩
  | 123 => ⟨S8192x400, .f32⟩
  | 124 => ⟨S8192x400, .f32⟩
  | 125 => ⟨S1x1x400x400, .f32⟩
  | 126 => ⟨S400x400, .f32⟩
  | 127 => ⟨S8192x400, .f32⟩
  | _ => ⟨S8192x13, .f32⟩

abbrev hbmTy0_1 (i : Nat) : BufTy := match i % 128 with
  | 0 => ⟨S1x1x400, .f32⟩
  | 1 => ⟨S400, .f32⟩
  | 2 => ⟨S1x400, .f32⟩
  | 3 => ⟨S8192x400, .f32⟩
  | 4 => ⟨S8192x400, .f32⟩
  | 5 => ⟨S1, .f32⟩
  | 6 => ⟨S_, .f32⟩
  | 7 => ⟨S8192x400, .f32⟩
  | 8 => ⟨S8192x400, .f32⟩
  | 9 => ⟨S_, .f32⟩
  | 10 => ⟨S_, .f32⟩
  | 11 => ⟨S1, .f32⟩
  | 12 => ⟨S_, .f32⟩
  | 13 => ⟨S_, .f32⟩
  | 14 => ⟨S8192x400, .f32⟩
  | 15 => ⟨S8192x400, .f32⟩
  | 16 => ⟨S4, .f32⟩
  | 17 => ⟨S4, .f32⟩
  | 18 => ⟨S4, .f32⟩
  | 19 => ⟨S1, .f32⟩
  | 20 => ⟨S_, .f32⟩
  | 21 => ⟨S8192x416, .f32⟩
  | 22 => ⟨S8192x416, .f32⟩
  | 23 => ⟨S_, .f32⟩
  | 24 => ⟨S_, .f32⟩
  | 25 => ⟨S1, .f32⟩
  | 26 => ⟨S_, .f32⟩
  | 27 => ⟨S_, .f32⟩
  | 28 => ⟨S8192x416, .f32⟩
  | 29 => ⟨S8192x416, .f32⟩
  | 30 => ⟨S1, .f32⟩
  | 31 => ⟨S_, .f32⟩
  | 32 => ⟨S8192x400, .f32⟩
  | 33 => ⟨S8192x400, .f32⟩
  | 34 => ⟨S_, .f32⟩
  | 35 => ⟨S_, .f32⟩
  | 36 => ⟨S1, .f32⟩
  | 37 => ⟨S_, .f32⟩
  | 38 => ⟨S_, .f32⟩
  | 39 => ⟨S8192x400, .f32⟩
  | 40 => ⟨S8192x400, .f32⟩
  | 41 => ⟨S8192x400, .f32⟩
  | 42 => ⟨S8192x400, .f32⟩
  | 43 => ⟨S8192x400, .f32⟩
  | 44 => ⟨S_, .f32⟩
  | 45 => ⟨S8192x400, .f32⟩
  | 46 => ⟨S8192x400, .f32⟩
  | 47 => ⟨S1x1x400x400, .f32⟩
  | 48 => ⟨S400x400, .f32⟩
  | 49 => ⟨S8192x400, .f32⟩
  | 50 => ⟨S1x1x400, .f32⟩
  | 51 => ⟨S400, .f32⟩
  | 52 => ⟨S1x400, .f32⟩
  | 53 => ⟨S8192x400, .f32⟩
  | 54 => ⟨S8192x400, .f32⟩
  | 55 => ⟨S1, .f32⟩
  | 56 => ⟨S_, .f32⟩
  | 57 => ⟨S8192x400, .f32⟩
  | 58 => ⟨S8192x400, .f32⟩
  | 59 => ⟨S_, .f32⟩
  | 60 => ⟨S_, .f32⟩
  | 61 => ⟨S1, .f32⟩
  | 62 => ⟨S_, .f32⟩
  | 63 => ⟨S_, .f32⟩
  | 64 => ⟨S8192x400, .f32⟩
  | 65 => ⟨S8192x400, .f32⟩
  | 66 => ⟨S5, .f32⟩
  | 67 => ⟨S5, .f32⟩
  | 68 => ⟨S4, .f32⟩
  | 69 => ⟨S1, .f32⟩
  | 70 => ⟨S_, .f32⟩
  | 71 => ⟨S8192x416, .f32⟩
  | 72 => ⟨S8192x416, .f32⟩
  | 73 => ⟨S_, .f32⟩
  | 74 => ⟨S_, .f32⟩
  | 75 => ⟨S1, .f32⟩
  | 76 => ⟨S_, .f32⟩
  | 77 => ⟨S_, .f32⟩
  | 78 => ⟨S8192x416, .f32⟩
  | 79 => ⟨S8192x416, .f32⟩
  | 80 => ⟨S1, .f32⟩
  | 81 => ⟨S_, .f32⟩
  | 82 => ⟨S8192x400, .f32⟩
  | 83 => ⟨S8192x400, .f32⟩
  | 84 => ⟨S_, .f32⟩
  | 85 => ⟨S_, .f32⟩
  | 86 => ⟨S1, .f32⟩
  | 87 => ⟨S_, .f32⟩
  | 88 => ⟨S_, .f32⟩
  | 89 => ⟨S8192x400, .f32⟩
  | 90 => ⟨S8192x400, .f32⟩
  | 91 => ⟨S8192x400, .f32⟩
  | 92 => ⟨S8192x400, .f32⟩
  | 93 => ⟨S8192x400, .f32⟩
  | 94 => ⟨S_, .f32⟩
  | 95 => ⟨S8192x400, .f32⟩
  | 96 => ⟨S8192x400, .f32⟩
  | 97 => ⟨S1x1x400x400, .f32⟩
  | 98 => ⟨S400x400, .f32⟩
  | 99 => ⟨S8192x400, .f32⟩
  | 100 => ⟨S1x1x400, .f32⟩
  | 101 => ⟨S400, .f32⟩
  | 102 => ⟨S1x400, .f32⟩
  | 103 => ⟨S8192x400, .f32⟩
  | 104 => ⟨S8192x400, .f32⟩
  | 105 => ⟨S1, .f32⟩
  | 106 => ⟨S_, .f32⟩
  | 107 => ⟨S8192x400, .f32⟩
  | 108 => ⟨S8192x400, .f32⟩
  | 109 => ⟨S_, .f32⟩
  | 110 => ⟨S_, .f32⟩
  | 111 => ⟨S1, .f32⟩
  | 112 => ⟨S_, .f32⟩
  | 113 => ⟨S_, .f32⟩
  | 114 => ⟨S8192x400, .f32⟩
  | 115 => ⟨S8192x400, .f32⟩
  | 116 => ⟨S8192x1600, .f32⟩
  | 117 => ⟨S8192x1, .f32⟩
  | 118 => ⟨S1x1, .f32⟩
  | 119 => ⟨S8192x1, .f32⟩
  | 120 => ⟨S8192x1, .f32⟩
  | 121 => ⟨S_, .f32⟩
  | 122 => ⟨S_, .f32⟩
  | _ => ⟨S8192x13, .f32⟩

abbrev hbmTy (i : Nat) : BufTy := match i / 128 with
  | 0 => hbmTy0_0 i
  | 1 => hbmTy0_1 i
  | _ => ⟨S8192x13, .f32⟩

abbrev bufTy : (tb : Table) → Fin (tcTables nBuf tb) → BufTy
  | .hbm, ⟨i, _⟩ => hbmTy i
  | _, _ => ⟨S8192x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v18 : Ref sig .tc := ⟨.hbm, 38, rfl⟩
abbrev main_call1_v0 : Ref sig .tc := ⟨.hbm, 39, rfl⟩
abbrev main_call1_cst : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_3 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_4 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_5 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call3_cst : Ref sig .tc := ⟨.hbm, 122, rfl⟩
abbrev main_call3_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_6 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_7 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_8 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_call4_cst : Ref sig .tc := ⟨.hbm, 172, rfl⟩
abbrev main_call4_v0 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_9 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_10 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_11 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_call5_cst : Ref sig .tc := ⟨.hbm, 222, rfl⟩
abbrev main_call5_v0 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_12 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_13 : Ref sig .tc := ⟨.hbm, 249, rfl⟩
abbrev main_v206 : Ref sig .tc := ⟨.hbm, 250, rfl⟩

abbrev nD : Nat := 1
abbrev τ : Topo := Topo.v7x

variable {F : FTy → Type} [FloatOps F]

class Facts₀ : Prop where
  slices_S1300013x16_S13x16_0_0 : S1300013x16.Slices ![0, 0] S13x16
  bcast_S13x16_S1x13x16_1_2 : S13x16.BroadcastsInDim S1x13x16 (![1, 2] : Fin 2 → Fin S1x13x16.rank)
  bcast_S8192x13_S8192x13x1_0_1 : S8192x13.BroadcastsInDim S8192x13x1 (![0, 1] : Fin 2 → Fin S8192x13x1.rank)
  bcast_S1x13x16_S8192x13x16_0_1_2 : S1x13x16.BroadcastsInDim S8192x13x16 (![0, 1, 2] : Fin 3 → Fin S8192x13x16.rank)
  bcast_S8192x13x1_S8192x13x16_0_1_2 : S8192x13x1.BroadcastsInDim S8192x13x16 (![0, 1, 2] : Fin 3 → Fin S8192x13x16.rank)
  bcast_S26_S1x26_1 : S26.BroadcastsInDim S1x26 (![1] : Fin 1 → Fin S1x26.rank)
  bcast_S1x26_S8192x26_0_1 : S1x26.BroadcastsInDim S8192x26 (![0, 1] : Fin 2 → Fin S8192x26.rank)
  bcast_S_S8192x26 : S_.BroadcastsInDim S8192x26 (![] : Fin 0 → Fin S8192x26.rank)
  bcast_S8192x26_S8192x26x1_0_1 : S8192x26.BroadcastsInDim S8192x26x1 (![0, 1] : Fin 2 → Fin S8192x26x1.rank)
  shapeCasts_S8192x13x16_S8192x208 : S8192x13x16.ShapeCasts S8192x208
  shapeCasts_S8192x26x16_S8192x416 : S8192x26x16.ShapeCasts S8192x416
  reducesTo_S8192x13x16_S_d0_1_2 : S8192x13x16.ReducesTo [0, 1, 2] S_
  h_S_ : 0 < S_.numel
  reducesTo_S8192x26x16_S_d0_1_2 : S8192x26x16.ReducesTo [0, 1, 2] S_
  slices_S8_S2_0 : S8.Slices ![0] S2
  slices_S8_S2_2 : S8.Slices ![2] S2
  slices_S8_S4_4 : S8.Slices ![4] S4
  slices_S2_S1_0 : S2.Slices ![0] S1
  shapeCasts_S1_S_ : S1.ShapeCasts S_
  bcast_S_S8192x208 : S_.BroadcastsInDim S8192x208 (![] : Fin 0 → Fin S8192x208.rank)
  reducesTo_S2_S_d0 : S2.ReducesTo [0] S_
  slices_S2_S1_1 : S2.Slices ![1] S1
  bcast_S_S8192x416 : S_.BroadcastsInDim S8192x416 (![] : Fin 0 → Fin S8192x416.rank)
  bcast_S_S8192x400 : S_.BroadcastsInDim S8192x400 (![] : Fin 0 → Fin S8192x400.rank)
  slices_S4x4x400x400_S1x1x400x400_0_0_0_0 : S4x4x400x400.Slices ![0, 0, 0, 0] S1x1x400x400
  shapeCasts_S1x1x400x400_S400x400 : S1x1x400x400.ShapeCasts S400x400
  slices_S4x4x400_S1x1x400_0_0_0 : S4x4x400.Slices ![0, 0, 0] S1x1x400
  shapeCasts_S1x1x400_S400 : S1x1x400.ShapeCasts S400
  bcast_S400_S1x400_1 : S400.BroadcastsInDim S1x400 (![1] : Fin 1 → Fin S1x400.rank)
  bcast_S1x400_S8192x400_0_1 : S1x400.BroadcastsInDim S8192x400 (![0, 1] : Fin 2 → Fin S8192x400.rank)
  slices_S4_S1_0 : S4.Slices ![0] S1
  reducesTo_S4_S_d0 : S4.ReducesTo [0] S_
  slices_S10_S3_0 : S10.Slices ![0] S3
  slices_S10_S3_3 : S10.Slices ![3] S3
  slices_S10_S4_6 : S10.Slices ![6] S4
  slices_S3_S1_1 : S3.Slices ![1] S1
  reducesTo_S3_S_d0 : S3.ReducesTo [0] S_
  slices_S3_S1_2 : S3.Slices ![2] S1
  slices_S4x4x400x400_S1x1x400x400_1_1_0_0 : S4x4x400x400.Slices ![1, 1, 0, 0] S1x1x400x400
  slices_S4x4x400_S1x1x400_1_1_0 : S4x4x400.Slices ![1, 1, 0] S1x1x400
  slices_S4_S1_1 : S4.Slices ![1] S1
  slices_S12_S4_0 : S12.Slices ![0] S4
  slices_S12_S4_4 : S12.Slices ![4] S4
  slices_S12_S4_8 : S12.Slices ![8] S4
  slices_S4_S1_3 : S4.Slices ![3] S1
  slices_S4x4x400x400_S1x1x400x400_2_2_0_0 : S4x4x400x400.Slices ![2, 2, 0, 0] S1x1x400x400
  slices_S4x4x400_S1x1x400_2_2_0 : S4x4x400.Slices ![2, 2, 0] S1x1x400
  slices_S4_S1_2 : S4.Slices ![2] S1
  slices_S14_S5_0 : S14.Slices ![0] S5
  slices_S14_S5_5 : S14.Slices ![5] S5
  slices_S14_S4_10 : S14.Slices ![10] S4
  slices_S5_S1_1 : S5.Slices ![1] S1
  reducesTo_S5_S_d0 : S5.ReducesTo [0] S_
  slices_S5_S1_4 : S5.Slices ![4] S1
  slices_S4x4x400x400_S1x1x400x400_3_3_0_0 : S4x4x400x400.Slices ![3, 3, 0, 0] S1x1x400x400
  slices_S4x4x400_S1x1x400_3_3_0 : S4x4x400.Slices ![3, 3, 0] S1x1x400
  concatenates_S8192x400_S8192x400_S8192x400_S8192x400_S8192x1600_d1 : Shape.Concatenates [S8192x400, S8192x400, S8192x400, S8192x400] S8192x1600 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S1300013x16_S8192x26x1_S8192x26x16_2_0_n_n_0_2_116_wf : GatherDims.WF S1300013x16 S8192x26x1 S8192x26x16 [2] [0] [] [0] [] 2 ![1, 16]
  dot_S8192x208_S208x400_S8192x400_1_0_0_1_n_n_wf : DotDims.WF S8192x208 S208x400 S8192x400 [1] [0] [0] [1] [] []
  dot_S8192x416_S416x400_S8192x400_1_0_0_1_n_n_wf : DotDims.WF S8192x416 S416x400 S8192x400 [1] [0] [0] [1] [] []
  dot_S8192x400_S400x400_S8192x400_1_0_0_1_n_n_wf : DotDims.WF S8192x400 S400x400 S8192x400 [1] [0] [0] [1] [] []
  dot_S8192x1600_S1600x1_S8192x1_1_0_0_1_n_n_wf : DotDims.WF S8192x1600 S1600x1 S8192x1 [1] [0] [0] [1] [] []

variable [Facts₀]

def gather_S1300013x16_S8192x26x1_S8192x26x16_2_0_n_n_0_2_116 : GatherDims S1300013x16 S8192x26x1 S8192x26x16 where
  offsetDims := [2]
  collapsedSliceDims := [0]
  operandBatchingDims := []
  startIndicesBatchingDims := []
  startIndexMap := [0]
  indexVectorDim := 2
  sliceSizes := ![1, 16]
  wf := gather_S1300013x16_S8192x26x1_S8192x26x16_2_0_n_n_0_2_116_wf
def dot_S8192x208_S208x400_S8192x400_1_0_0_1_n_n : DotDims S8192x208 S208x400 S8192x400 where
  lhsContracting := [1]
  rhsContracting := [0]
  lhsNonContracting := [0]
  rhsNonContracting := [1]
  lhsBatch := []
  rhsBatch := []
  wf := dot_S8192x208_S208x400_S8192x400_1_0_0_1_n_n_wf
def dot_S8192x416_S416x400_S8192x400_1_0_0_1_n_n : DotDims S8192x416 S416x400 S8192x400 where
  lhsContracting := [1]
  rhsContracting := [0]
  lhsNonContracting := [0]
  rhsNonContracting := [1]
  lhsBatch := []
  rhsBatch := []
  wf := dot_S8192x416_S416x400_S8192x400_1_0_0_1_n_n_wf
def dot_S8192x400_S400x400_S8192x400_1_0_0_1_n_n : DotDims S8192x400 S400x400 S8192x400 where
  lhsContracting := [1]
  rhsContracting := [0]
  lhsNonContracting := [0]
  rhsNonContracting := [1]
  lhsBatch := []
  rhsBatch := []
  wf := dot_S8192x400_S400x400_S8192x400_1_0_0_1_n_n_wf
def dot_S8192x1600_S1600x1_S8192x1_1_0_0_1_n_n : DotDims S8192x1600 S1600x1 S8192x1 where
  lhsContracting := [1]
  rhsContracting := [0]
  lhsNonContracting := [0]
  rhsNonContracting := [1]
  lhsBatch := []
  rhsBatch := []
  wf := dot_S8192x1600_S1600x1_S8192x1_1_0_0_1_n_n_wf

class Facts : Prop extends Facts₀ where

variable [Facts]
-- ==== Proof.K.Region0.lean ====
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x208 := Rect.unit (s := S1024x208) ![0, 0] S1024x208.size inb_S1024x208_S1024x208_0_0
abbrev r0_1 : Rect S1024x416 := Rect.unit (s := S1024x416) ![0, 0] S1024x416.size inb_S1024x416_S1024x416_0_0
abbrev r0_2 : Rect S208x400 := Rect.unit (s := S208x400) ![0, 0] S208x400.size inb_S208x400_S208x400_0_0
abbrev r0_3 : Rect S416x400 := Rect.unit (s := S416x400) ![0, 0] S416x400.size inb_S416x400_S416x400_0_0
abbrev r0_4 : Rect S400x400 := Rect.unit (s := S400x400) ![0, 0] S400x400.size inb_S400x400_S400x400_0_0
abbrev r0_5 : Rect S1x400 := Rect.unit (s := S1x400) ![0, 0] S1x400.size inb_S1x400_S1x400_0_0
abbrev r0_6 : Rect S1024x400 := Rect.unit (s := S1024x400) ![0, 0] S1024x400.size inb_S1024x400_S1024x400_0_0

def out0_6 (x0 : Vec F S1024x208 .f32) (x1 : Vec F S1024x416 .f32) (x2 : Vec F S208x400 .bf16) (x3 : Vec F S416x400 .bf16) (x4 : Vec F S400x400 .bf16) (x5 : Vec F S1x400 .f32) : Vec F S1024x400 .f32 :=
  View.canon [⟨r0_6, k0_pay1 (View.ld x0 r0_0) (View.ld x1 r0_1) (View.ld x2 r0_2) (View.ld x3 r0_3) (View.ld x4 r0_4) (View.ld x5 r0_5)⟩]

/-- The body reads the six input buffers whole and stores its value of them over the whole output buffer. -/
theorem sound_kernel0 (c : Dev nD) (E : Set ℕ) (i : grid0.Coords) (arg0 : Memref sig .tc .vmem S1024x208 .f32) (harg0 : arg0.IsWhole) (arg1 : Memref sig .tc .vmem S1024x416 .f32) (harg1 : arg1.IsWhole) (arg2 : Memref sig .tc .vmem S208x400 .bf16) (harg2 : arg2.IsWhole) (arg3 : Memref sig .tc .vmem S416x400 .bf16) (harg3 : arg3.IsWhole) (arg4 : Memref sig .tc .vmem S400x400 .bf16) (harg4 : arg4.IsWhole) (arg5 : Memref sig .tc .vmem S1x400 .f32) (harg5 : arg5.IsWhole) (arg6 : Memref sig .tc .vmem S1024x400 .f32) (harg6 : arg6.IsWhole)
    (x0 : Vec F S1024x208 .f32) (x1 : Vec F S1024x416 .f32) (x2 : Vec F S208x400 .bf16) (x3 : Vec F S416x400 .bf16) (x4 : Vec F S400x400 .bf16) (x5 : Vec F S1x400 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (out0_6 x0 x1 x2 x3 x4 x5)) -∗ K ⟨⟩))
      ⊢ wp frame (wpE (defs₀ (F := F)) Variants.none c none) E (cc0__block_kernel i arg0 harg0 arg1 harg1 arg2 harg2 arg3 harg3 arg4 harg4 arg5 harg5 arg6 harg6) K := by
  simp only [cc0__block_kernel_eq_skeleton]; unfold cc0__block_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1024x400.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem after0_6' (c : Dev nD) (t : Fin cfg0.N) : (dat0 V c).after 6 t = out0_6 ((dat0 V c).after 0 t) ((dat0 V c).after 1 t) ((dat0 V c).after 2 t) ((dat0 V c).after 3 t) ((dat0 V c).after 4 t) ((dat0 V c).after 5 t) := by dsimp only [dat0]

/-- Lets the body obligation name an input's contents before and after the body by one term. -/
theorem before0 (c : Dev nD) (t : Fin cfg0.N) (w : Fin 7) (hw : w ≠ 6) : ∀ d, (dat0 V c).before w t d = (dat0 V c).after w t :=
  match w, hw with
  | ⟨0, _⟩, _ | ⟨1, _⟩, _ | ⟨2, _⟩, _ | ⟨3, _⟩, _ | ⟨4, _⟩, _ | ⟨5, _⟩, _ => (dat0 V c).before_in_eq_fetched _ rfl (fun _ => rfl) (fun _ _ _ => rfl) (fun _ => rfl) t
  | ⟨6, _⟩, hw => absurd rfl hw

theorem body_obligation0 (c : Dev nD) : BodyObligation (dat0 (F := F) V c) (defs₀ (F := F)) Variants.none () Set.univ := fun t => by
  rw [bigSep_W0, bigSep_W0]
  simp (disch := decide) only [before0, after0_6']
  rewrite [show (dat0 V c).Φ t.succ = (dat0 V c).Φ t.castSucc from rfl, show (dat0 V c).owesAt () t.succ = (dat0 V c).owesAt () t.castSucc from rfl]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply (sound_kernel0 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.Kernel.Fr

end
-- ==== Proof.K.Region1.lean ====
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x416 := Rect.unit (s := S1024x416) ![0, 0] S1024x416.size inb_S1024x416_S1024x416_0_0
abbrev r1_1 : Rect S1024x400 := Rect.unit (s := S1024x400) ![0, 0] S1024x400.size inb_S1024x400_S1024x400_0_0
abbrev r1_2 : Rect S416x400 := Rect.unit (s := S416x400) ![0, 0] S416x400.size inb_S416x400_S416x400_0_0
abbrev r1_3 : Rect S400x400 := Rect.unit (s := S400x400) ![0, 0] S400x400.size inb_S400x400_S400x400_0_0
abbrev r1_4 : Rect S400x400 := Rect.unit (s := S400x400) ![0, 0] S400x400.size inb_S400x400_S400x400_0_0
abbrev r1_5 : Rect S1x400 := Rect.unit (s := S1x400) ![0, 0] S1x400.size inb_S1x400_S1x400_0_0
abbrev r1_6 : Rect S1024x400 := Rect.unit (s := S1024x400) ![0, 0] S1024x400.size inb_S1024x400_S1024x400_0_0

def out1_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k1_pay1 (View.ld x0 r1_0) (View.ld x1 r1_1) (View.ld x2 r1_2) (View.ld x3 r1_3) (View.ld x4 r1_4) (View.ld x5 r1_5)⟩]

/-- The body reads the six input buffers whole and stores its value of them over the whole output buffer. -/
theorem sound_kernel1 (c : Dev nD) (E : Set ℕ) (i : grid1.Coords) (arg0 : Memref sig .tc .vmem S1024x416 .f32) (harg0 : arg0.IsWhole) (arg1 : Memref sig .tc .vmem S1024x400 .f32) (harg1 : arg1.IsWhole) (arg2 : Memref sig .tc .vmem S416x400 .bf16) (harg2 : arg2.IsWhole) (arg3 : Memref sig .tc .vmem S400x400 .bf16) (harg3 : arg3.IsWhole) (arg4 : Memref sig .tc .vmem S400x400 .bf16) (harg4 : arg4.IsWhole) (arg5 : Memref sig .tc .vmem S1x400 .f32) (harg5 : arg5.IsWhole) (arg6 : Memref sig .tc .vmem S1024x400 .f32) (harg6 : arg6.IsWhole)
    (x0 : Vec F S1024x416 .f32) (x1 : Vec F S1024x400 .f32) (x2 : Vec F S416x400 .bf16) (x3 : Vec F S400x400 .bf16) (x4 : Vec F S400x400 .bf16) (x5 : Vec F S1x400 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (out1_6 x0 x1 x2 x3 x4 x5)) -∗ K ⟨⟩))
      ⊢ wp frame (wpE (defs₀ (F := F)) Variants.none c none) E (cc1__block_kernel i arg0 harg0 arg1 harg1 arg2 harg2 arg3 harg3 arg4 harg4 arg5 harg5 arg6 harg6) K := by
  simp only [cc1__block_kernel_eq_skeleton]; unfold cc1__block_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1024x400.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem after1_6' (c : Dev nD) (t : Fin cfg1.N) : (dat1 V c).after 6 t = out1_6 ((dat1 V c).after 0 t) ((dat1 V c).after 1 t) ((dat1 V c).after 2 t) ((dat1 V c).after 3 t) ((dat1 V c).after 4 t) ((dat1 V c).after 5 t) := by dsimp only [dat1]

/-- Lets the body obligation name an input's contents before and after the body by one term. -/
theorem before1 (c : Dev nD) (t : Fin cfg1.N) (w : Fin 7) (hw : w ≠ 6) : ∀ d, (dat1 V c).before w t d = (dat1 V c).after w t :=
  match w, hw with
  | ⟨0, _⟩, _ | ⟨1, _⟩, _ | ⟨2, _⟩, _ | ⟨3, _⟩, _ | ⟨4, _⟩, _ | ⟨5, _⟩, _ => (dat1 V c).before_in_eq_fetched _ rfl (fun _ => rfl) (fun _ _ _ => rfl) (fun _ => rfl) t
  | ⟨6, _⟩, hw => absurd rfl hw

theorem body_obligation1 (c : Dev nD) : BodyObligation (dat1 (F := F) V c) (defs₀ (F := F)) Variants.none () Set.univ := fun t => by
  rw [bigSep_W1, bigSep_W1]
  simp (disch := decide) only [before1, after1_6']
  rewrite [show (dat1 V c).Φ t.succ = (dat1 V c).Φ t.castSucc from rfl, show (dat1 V c).owesAt () t.succ = (dat1 V c).owesAt () t.castSucc from rfl]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.Kernel.Fr

end
-- ==== Proof.K.Region2.lean ====
import proofs.«429333_j2637109920279_1_alg».proof.Proof.K.Region1

noncomputable section

namespace Cert.Kernel.Fr

open Cert.Kernel.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k2_pay1 (View.ld x0 r1_0) (View.ld x1 r1_1) (View.ld x2 r1_2) (View.ld x3 r1_3) (View.ld x4 r1_4) (View.ld x5 r1_5)⟩]

/-- Regions 1 and 2 run one kernel function on one shape. -/
theorem kernel_eq2 : cc2__block_kernel (F := F) = cc1__block_kernel := rfl
theorem out_eq2 : out2_6 (F := F) = out1_6 := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem after2_6' (c : Dev nD) (t : Fin cfg2.N) : (dat2 V c).after 6 t = out2_6 ((dat2 V c).after 0 t) ((dat2 V c).after 1 t) ((dat2 V c).after 2 t) ((dat2 V c).after 3 t) ((dat2 V c).after 4 t) ((dat2 V c).after 5 t) := by dsimp only [dat2]

/-- Lets the body obligation name an input's contents before and after the body by one term. -/
theorem before2 (c : Dev nD) (t : Fin cfg2.N) (w : Fin 7) (hw : w ≠ 6) : ∀ d, (dat2 V c).before w t d = (dat2 V c).after w t :=
  match w, hw with
  | ⟨0, _⟩, _ | ⟨1, _⟩, _ | ⟨2, _⟩, _ | ⟨3, _⟩, _ | ⟨4, _⟩, _ | ⟨5, _⟩, _ => (dat2 V c).before_in_eq_fetched _ rfl (fun _ => rfl) (fun _ _ _ => rfl) (fun _ => rfl) t
  | ⟨6, _⟩, hw => absurd rfl hw

theorem body_obligation2 (c : Dev nD) : BodyObligation (dat2 (F := F) V c) (defs₀ (F := F)) Variants.none () Set.univ := fun t => by
  rw [bigSep_W2, bigSep_W2]
  simp (disch := decide) only [before2, after2_6', out_eq2]
  rewrite [show (dat2 V c).Φ t.succ = (dat2 V c).Φ t.castSucc from rfl, show (dat2 V c).owesAt () t.succ = (dat2 V c).owesAt () t.castSucc from rfl]
  sl_whnfR [defs₀, Defs.onTc]
  rewrite [kernel_eq2]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.Kernel.Fr

end
-- ==== Proof.K.Region3.lean ====
import proofs.«429333_j2637109920279_1_alg».proof.Proof.K.Region1

noncomputable section

namespace Cert.Kernel.Fr

open Cert.Kernel.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k3_pay1 (View.ld x0 r1_0) (View.ld x1 r1_1) (View.ld x2 r1_2) (View.ld x3 r1_3) (View.ld x4 r1_4) (View.ld x5 r1_5)⟩]

/-- Regions 1 and 3 run one kernel function on one shape. -/
theorem kernel_eq3 : cc3__block_kernel (F := F) = cc1__block_kernel := rfl
theorem out_eq3 : out3_6 (F := F) = out1_6 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem after3_6' (c : Dev nD) (t : Fin cfg3.N) : (dat3 V c).after 6 t = out3_6 ((dat3 V c).after 0 t) ((dat3 V c).after 1 t) ((dat3 V c).after 2 t) ((dat3 V c).after 3 t) ((dat3 V c).after 4 t) ((dat3 V c).after 5 t) := by dsimp only [dat3]

/-- Lets the body obligation name an input's contents before and after the body by one term. -/
theorem before3 (c : Dev nD) (t : Fin cfg3.N) (w : Fin 7) (hw : w ≠ 6) : ∀ d, (dat3 V c).before w t d = (dat3 V c).after w t :=
  match w, hw with
  | ⟨0, _⟩, _ | ⟨1, _⟩, _ | ⟨2, _⟩, _ | ⟨3, _⟩, _ | ⟨4, _⟩, _ | ⟨5, _⟩, _ => (dat3 V c).before_in_eq_fetched _ rfl (fun _ => rfl) (fun _ _ _ => rfl) (fun _ => rfl) t
  | ⟨6, _⟩, hw => absurd rfl hw

theorem body_obligation3 (c : Dev nD) : BodyObligation (dat3 (F := F) V c) (defs₀ (F := F)) Variants.none () Set.univ := fun t => by
  rw [bigSep_W3, bigSep_W3]
  simp (disch := decide) only [before3, after3_6', out_eq3]
  rewrite [show (dat3 V c).Φ t.succ = (dat3 V c).Φ t.castSucc from rfl, show (dat3 V c).owesAt () t.succ = (dat3 V c).owesAt () t.castSucc from rfl]
  sl_whnfR [defs₀, Defs.onTc]
  rewrite [kernel_eq3]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.Kernel.Fr

end
-- ==== Proof.K.Region4.lean ====
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x1600 := Rect.unit (s := S512x1600) ![0, 0] S512x1600.size inb_S512x1600_S512x1600_0_0
abbrev r4_1 : Rect S1600x1 := Rect.unit (s := S1600x1) ![0, 0] S1600x1.size inb_S1600x1_S1600x1_0_0
abbrev r4_2 : Rect S1x1 := Rect.unit (s := S1x1) ![0, 0] S1x1.size inb_S1x1_S1x1_0_0
abbrev r4_3 : Rect S512x1 := Rect.unit (s := S512x1) ![0, 0] S512x1.size inb_S512x1_S512x1_0_0

def out4_3 (x0 : Vec F S512x1600 .f32) (x1 : Vec F S1600x1 .bf16) (x2 : Vec F S1x1 .f32) : Vec F S512x1 .f32 :=
  View.canon [⟨r4_3, k4_pay1 (View.ld x0 r4_0) (View.ld x1 r4_1) (View.ld x2 r4_2)⟩]

/-- The body reads the three input buffers whole and stores its value of them over the whole output buffer. -/
theorem sound_kernel4 (c : Dev nD) (E : Set ℕ) (i : grid4.Coords)
    (arg0 : Memref sig .tc .vmem S512x1600 .f32) (harg0 : arg0.IsWhole) (arg1 : Memref sig .tc .vmem S1600x1 .bf16) (harg1 : arg1.IsWhole)
    (arg2 : Memref sig .tc .vmem S1x1 .f32) (harg2 : arg2.IsWhole) (arg3 : Memref sig .tc .vmem S512x1 .f32) (harg3 : arg3.IsWhole)
    (x0 : Vec F S512x1600 .f32) (x1 : Vec F S1600x1 .bf16) (x2 : Vec F S1x1 .f32) (K : PUnit → sProp 𝕄) :
    iprop(owns c arg0 fullShare x0 ∗ owns c arg1 fullShare x1 ∗ owns c arg2 fullShare x2
        ∗ (∃ d, owns c arg3 fullShare d)
        ∗ (iprop(owns c arg0 fullShare x0 ∗ owns c arg1 fullShare x1 ∗ owns c arg2 fullShare x2
            ∗ owns c arg3 fullShare (out4_3 x0 x1 x2)) -∗ K ⟨⟩))
      ⊢ wp frame (wpE (defs₀ (F := F)) Variants.none c none) E (cc4__clf_kernel i arg0 harg0 arg1 harg1 arg2 harg2 arg3 harg3) K := by
  simp only [cc4__clf_kernel_eq_skeleton]; unfold cc4__clf_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x1.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]

theorem after4_3' (c : Dev nD) (t : Fin cfg4.N) : (dat4 V c).after 3 t = out4_3 ((dat4 V c).after 0 t) ((dat4 V c).after 1 t) ((dat4 V c).after 2 t) := by dsimp only [dat4]

/-- Lets the body obligation name an input's contents before and after the body by one term. -/
theorem before4 (c : Dev nD) (t : Fin cfg4.N) (w : Fin 4) (hw : w ≠ 3) : ∀ d, (dat4 V c).before w t d = (dat4 V c).after w t :=
  match w, hw with
  | ⟨0, _⟩, _ | ⟨1, _⟩, _ | ⟨2, _⟩, _ => (dat4 V c).before_in_eq_fetched _ rfl (fun _ => rfl) (fun _ _ _ => rfl) (fun _ => rfl) t
  | ⟨3, _⟩, hw => absurd rfl hw

theorem body_obligation4 (c : Dev nD) : BodyObligation (dat4 (F := F) V c) (defs₀ (F := F)) Variants.none () Set.univ := fun t => by
  rw [bigSep_W4, bigSep_W4]
  simp (disch := decide) only [before4, after4_3']
  rewrite [show (dat4 V c).Φ t.succ = (dat4 V c).Φ t.castSucc from rfl, show (dat4 V c).owesAt () t.succ = (dat4 V c).owesAt () t.castSucc from rfl]
  sl_whnfR [defs₀, Defs.onTc]
  iintro ⟨HΦ, Ho, ⟨%_, H0⟩, ⟨%_, H1⟩, ⟨%_, H2⟩, ⟨%_, H3⟩⟩
  iapply (sound_kernel4 c Set.univ _ _ _ _ _ _ _ _ _ _ _ _ _)
  iframe H0 H1 H2
  isplitl [H3]; · iexists _; iexact H3
  iintro ⟨H0, H1, H2, H3⟩
  iframe

end Cert.Kernel.Fr

end
-- ==== Proof.K.Fold.lean ====
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import proofs.«429333_j2637109920279_1_alg».proof.Proof.Gen.Kernel.Regions
import proofs.«429333_j2637109920279_1_alg».proof.Proof.K.Region0
import proofs.«429333_j2637109920279_1_alg».proof.Proof.K.Region1
import proofs.«429333_j2637109920279_1_alg».proof.Proof.K.Region2
import proofs.«429333_j2637109920279_1_alg».proof.Proof.K.Region3
import proofs.«429333_j2637109920279_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe

variable {F : FTy → Type} [FloatOps F]

variable (m : (ℓ : Loc nD τ sig) → Buf (Elt F) ℓ)

-- `W j c`: core `c`'s buffers after the first `j` items; a host stretch applies its operations, a region replaces its windows' arrays.
abbrev W0 : Dev nD → Valuation τ sig (Elt F) := fun c b => m (c, b)
abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
abbrev W2 : Dev nD → Valuation τ sig (Elt F) := fun c => StableHlo.after hostOps0_1 (W1 m c)
theorem W2_of (c : Dev nD) (r : Ref sig .tc) (h : r ∉ hostOps0_1_W) : W2 m c r = W1 m c r :=
  StableHlo.after_of_writes_sub hostOps0_1 _ hostOps0_1_writes h
abbrev W3 : Dev nD → Valuation τ sig (Elt F) := fun c => StableHlo.after hostOps0_2 (W2 m c)
theorem W3_of (c : Dev nD) (r : Ref sig .tc) (h : r ∉ hostOps0_2_W) : W3 m c r = W2 m c r :=
  StableHlo.after_of_writes_sub hostOps0_2 _ hostOps0_2_writes h
abbrev W4 : Dev nD → Valuation τ sig (Elt F) := fun c => StableHlo.after hostOps0_3 (W3 m c)
theorem W4_of (c : Dev nD) (r : Ref sig .tc) (h : r ∉ hostOps0_3_W) : W4 m c r = W3 m c r :=
  StableHlo.after_of_writes_sub hostOps0_3 _ hostOps0_3_writes h
abbrev V4 : (c : Dev nD) → (b : Ref sig .tc) → Buf (Elt F) ((c : Thread nD τ).loc b) := fun c b => W4 m c b
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N :=
  Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) :=
  Pipeline.withArrays_of_ne spec0 c _ _ b hb
abbrev W6 : Dev nD → Valuation τ sig (Elt F) := fun c => StableHlo.after hostOps1 (W5 m c)
theorem W6_of (c : Dev nD) (r : Ref sig .tc) (h : r ∉ hostOps1_W) : W6 m c r = W5 m c r :=
  StableHlo.after_of_writes_sub hostOps1 _ hostOps1_writes h
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) :=
  Pipeline.withArrays_of_ne spec1 c _ _ b hb
abbrev W8 : Dev nD → Valuation τ sig (Elt F) := fun c => StableHlo.after hostOps2 (W7 m c)
theorem W8_of (c : Dev nD) (r : Ref sig .tc) (h : r ∉ hostOps2_W) : W8 m c r = W7 m c r :=
  StableHlo.after_of_writes_sub hostOps2 _ hostOps2_writes h
abbrev V8 : (c : Dev nD) → (b : Ref sig .tc) → Buf (Elt F) ((c : Thread nD τ).loc b) := fun c b => W8 m c b
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N :=
  Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) :=
  Pipeline.withArrays_of_ne spec2 c _ _ b hb
abbrev W10 : Dev nD → Valuation τ sig (Elt F) := fun c => StableHlo.after hostOps3 (W9 m c)
theorem W10_of (c : Dev nD) (r : Ref sig .tc) (h : r ∉ hostOps3_W) : W10 m c r = W9 m c r :=
  StableHlo.after_of_writes_sub hostOps3 _ hostOps3_writes h
abbrev V10 : (c : Dev nD) → (b : Ref sig .tc) → Buf (Elt F) ((c : Thread nD τ).loc b) := fun c b => W10 m c b
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb
abbrev W12 : Dev nD → Valuation τ sig (Elt F) := fun c => StableHlo.after hostOps4 (W11 m c)
theorem W12_of (c : Dev nD) (r : Ref sig .tc) (h : r ∉ hostOps4_W) : W12 m c r = W11 m c r :=
  StableHlo.after_of_writes_sub hostOps4 _ hostOps4_writes h
abbrev V12 : (c : Dev nD) → (b : Ref sig .tc) → Buf (Elt F) ((c : Thread nD τ).loc b) := fun c b => W12 m c b
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N :=
  Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) :=
  Pipeline.withArrays_of_ne spec4 c _ _ b hb

end Cert.Kernel.Fr

end
-- ==== Proof.K.Run.lean ====
import proofs.«429333_j2637109920279_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V8 m) c
  | ⟨3, _⟩ => fun c => dat3 (V10 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

set_option backward.isDefEq.respectTransparency.types false in
-- Region `p` as a segment: entered with the buffers at `Wi`, left with them at `Wo`, which is `Wi` with the region's arrays replaced.
def reg (p : Fin 5) (lp : Pipeline.LaunchFacts (nD := nD) (τ := τ) cfgs p) (Wi Wo : Dev nD → Valuation τ sig (Elt F))
    (hb : ∀ c, BodyObligation (pdats m p c) defs₀ 𝒱₀ () Set.univ)
    (h : ∀ c, (∀ t, (pdats m p c).Φ t = Pipeline.ΦA (Pipeline.pin (pcfgs (F := F)) adm p).spec c) ∧ (∀ t, (pdats m p c).owed t = 0)
      ∧ (∀ w, (pdats m p c).q w = fullShare) ∧ (∀ w, (pdats m p c).A w = Wi c (Pipeline.arrRef (Pipeline.pin (pcfgs (F := F)) adm p).spec w))
      ∧ (pdats m p c).recorded 0 = Set.univ
      ∧ Wo c = Pipeline.withArrays (Pipeline.pin (pcfgs (F := F)) adm p).spec c (Wi c) fun w => (pdats m p c).arrAt w (Pipeline.pin (pcfgs (F := F)) adm p).N := by
      exact fun _ => ⟨fun _ => rfl, fun _ => rfl, fun _ => rfl, fun _ => rfl, rfl, rfl⟩) :
    Pipeline.RegionSeg (pcfgs (F := F)) adm (pdats m) () defs₀ 𝒱₀ L lv p where
  win := lp.win.to₀
  block_pos := lp.block_pos
  stage_whole := lp.stage_whole
  K := PEmpty
  osem k := k.elim
  ho := Pipeline.OwnSemFacts.none _
  hbody c := (hb c).loose
  hwaits := Pipeline.hwaits_of_owed_zero _ _ _ _ L lv p fun c => (h c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Wi c b
  hentry c := by
    rw [Pipeline.ownSems0_none]
    have hsplit := Pipeline.arrays_of_unscopedBufs (p := p) (pcfgs (F := F)) adm (pdats m) lp.win lp.arr_whole c
      ((pdats m p c).share_full (h c).2.2.1) (fun b => Wi c b) (h c).2.2.2.1
    rw [Pipeline.unscopedBufs_held] at hsplit
    unfold Pipeline.Dat.owesAt Pipeline.owesWithin Pipeline.Dat.bound
    rw [(h c).2.1, (h c).2.2.2.2.1]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [(h c).1]; unfold Pipeline.ΦA
    iintro ⟨Hp, -, Hr⟩
    isplitl [Hr]; · iexact Hr
    iexact Hp
  hout c := by
    rw [Pipeline.ownSems0_none, (h c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lp.win lp.arr_whole c (pdats m) ((pdats m p c).share_full (h c).2.2.1) (fun b => Wi c b) (fun b => Wo c b)
      ((pdats m p c).arrAt · (Pipeline.pin (pcfgs (F := F)) adm p).N)
      (fun w => by rw [(h c).2.2.2.2.2, Pipeline.withArrays_arr _ lp.win.arr_inj])
      (fun b hb => by
        rw [(h c).2.2.2.2.2]
        exact Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [(h c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg m 0 launch0 (W4 m) (W5 m) (body_obligation0 (V4 m))),
    .host (hseg hostOps1 hostOps1_sub hostOps1_fresh (W5 m)),
    .region (reg m 1 launch1 (W6 m) (W7 m) (body_obligation1 (V6 m))),
    .host (hseg hostOps2 hostOps2_sub hostOps2_fresh (W7 m)),
    .region (reg m 2 launch2 (W8 m) (W9 m) (body_obligation2 (V8 m))),
    .host (hseg hostOps3 hostOps3_sub hostOps3_fresh (W9 m)),
    .region (reg m 3 launch3 (W10 m) (W11 m) (body_obligation3 (V10 m))),
    .host (hseg hostOps4 hostOps4_sub hostOps4_fresh (W11 m)),
    .region (reg m 4 launch4 (W12 m) (W13 m) (body_obligation4 (V12 m))) ]
theorem main_run (c : Dev nD) : main (F := F) c = Pipeline.Seg.run (segs m) := (main_chain c).trans (by chain_rfl)

set_option backward.isDefEq.respectTransparency.types false in
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W13 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun _ h => h)

end Cert.Kernel.Fr

end
-- ==== Proof.K.Ends.lean ====
import proofs.«429333_j2637109920279_1_alg».proof.Proof.K.Fold
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import proofs.«429333_j2637109920279_1_alg».proof.Proof.Gen.Kernel.Regions
import proofs.«429333_j2637109920279_1_alg».proof.Proof.K.Region0
import proofs.«429333_j2637109920279_1_alg».proof.Proof.K.Region1
import proofs.«429333_j2637109920279_1_alg».proof.Proof.K.Region2
import proofs.«429333_j2637109920279_1_alg».proof.Proof.K.Region3
import proofs.«429333_j2637109920279_1_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe

variable {F : FTy → Type} [FloatOps F]

variable (m : (ℓ : Loc nD τ sig) → Buf (Elt F) ℓ)

-- no host stretch from region 0 on writes `b`, and `b` is no window's array
abbrev Kept (b : Ref sig .tc) : Prop :=
  b ∉ hostOps1_W ∧ b ∉ hostOps2_W ∧ b ∉ hostOps3_W ∧ b ∉ hostOps4_W ∧ (∀ w, Pipeline.arrRef spec0 w ≠ b)
    ∧ (∀ w, Pipeline.arrRef spec1 w ≠ b) ∧ (∀ w, Pipeline.arrRef spec2 w ≠ b) ∧ (∀ w, Pipeline.arrRef spec3 w ≠ b)
    ∧ ∀ w, Pipeline.arrRef spec4 w ≠ b

theorem W13_eq_W4 (c : Dev nD) (b : Ref sig .tc) (h : Kept b) : W13 m c (Proc.devRef .tc b) = W4 m c (Proc.devRef .tc b) := by
  obtain ⟨h1, h2, h3, h4, r0, r1, r2, r3, r4⟩ := h
  rw [W13_of_ne m c b r4, W12_of m c b h4, W11_of_ne m c b r3, W10_of m c b h3, W9_of_ne m c b r2, W8_of m c b h2,
    W7_of_ne m c b r1, W6_of m c b h1, W5_of_ne m c b r0]

theorem W4_eq_launch (c : Dev nD) (b : Ref sig .tc)
    (h0 : b ∉ hostOps0_W) (h01 : b ∉ hostOps0_1_W) (h02 : b ∉ hostOps0_2_W) (h03 : b ∉ hostOps0_3_W) :
    W4 m c (Proc.devRef .tc b) = m ((c : Thread nD τ).loc b) := by
  rw [W4_of m c b h03, W3_of m c b h02, W2_of m c b h01, W1_of m c b h0]

-- a buffer that nothing writes ends as launched
theorem W13_eq_launch (c : Dev nD) (b : Ref sig .tc)
    (h : (b ∉ hostOps0_W ∧ b ∉ hostOps0_1_W ∧ b ∉ hostOps0_2_W ∧ b ∉ hostOps0_3_W) ∧ Kept b) :
    W13 m c (Proc.devRef .tc b) = m ((c : Thread nD τ).loc b) :=
  (W13_eq_W4 m c b h.2).trans (W4_eq_launch m c b h.1.1 h.1.2.1 h.1.2.2.1 h.1.2.2.2)

theorem W13_main_arg8 (c : Dev nD) : W13 m c (Proc.devRef .tc main_arg8) = m ((c : Thread nD τ).loc main_arg8) :=
  W13_eq_launch m c main_arg8 (by decide)
theorem W13_main_arg9 (c : Dev nD) : W13 m c (Proc.devRef .tc main_arg9) = m ((c : Thread nD τ).loc main_arg9) :=
  W13_eq_launch m c main_arg9 (by decide)
theorem W13_main_v188 (c : Dev nD) : W13 m c (Proc.devRef .tc main_v188) = (dat4 (V12 m) c).arrAt 3 cfg4.N :=
  W13_arr m c 3
theorem W13_main_v21 (c : Dev nD) : W13 m c (Proc.devRef .tc main_v21) = W4 m c (Proc.devRef .tc main_v21) :=
  W13_eq_W4 m c main_v21 (by decide)
theorem W5_main_v60 (c : Dev nD) : W5 m c (Proc.devRef .tc main_v60) = (dat0 (V4 m) c).arrAt 6 cfg0.N :=
  W5_arr m c 6
theorem W7_main_v100 (c : Dev nD) : W7 m c (Proc.devRef .tc main_v100) = (dat1 (V6 m) c).arrAt 6 cfg1.N :=
  W7_arr m c 6
theorem W9_main_v140 (c : Dev nD) : W9 m c (Proc.devRef .tc main_v140) = (dat2 (V8 m) c).arrAt 6 cfg2.N :=
  W9_arr m c 6
theorem W11_main_v180 (c : Dev nD) : W11 m c (Proc.devRef .tc main_v180) = (dat3 (V10 m) c).arrAt 6 cfg3.N :=
  W11_arr m c 6

end Cert.Kernel.Fr

end
-- ==== Proof.K.Frame.lean ====
import proofs.«429333_j2637109920279_1_alg».proof.Proof.Gen.Kernel.Launch
import proofs.«429333_j2637109920279_1_alg».proof.Proof.Gen.Kernel.Skeleton
import proofs.«429333_j2637109920279_1_alg».proof.Proof.Gen.Kernel.Points
import proofs.«429333_j2637109920279_1_alg».proof.Proof.K.Run
import proofs.«429333_j2637109920279_1_alg».proof.Proof.K.Ends
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

-- the two result buffers read at the last boundary; nothing writes an argument
theorem run_results : θ_run defs (onTc (τ := τ) (main (F := F))) ⟨m, fun _ => 0, ρ⟩ (fun r => ∀ c : Dev nD,
      r.2.mem ((c.tc : Thread nD τ).loc main_v188) = W13 m c (Proc.devRef .tc main_v188)
      ∧ r.2.mem ((c.tc : Thread nD τ).loc main_v21) = W13 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    refine ⟨h c _ (mem_uc main_v188 (by decide)), h c _ (mem_uc main_v21 (by decide)),
      ?_, ?_, ?_, ?_, ?_, ?_, ?_, ?_, ?_, ?_, ?_, ?_, ?_, ?_⟩ <;>
    exact (h c _ (mem_uc _ (by decide))).trans (W13_eq_launch m c _ (by decide))) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2.2) (run_results m ρ)

end Cert.Kernel.Fr

end
-- ==== Proof.KI.Region0.lean ====
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x208 := Rect.unit (s := S1024x208) ![0, 0] S1024x208.size inb_S1024x208_S1024x208_0_0
abbrev r0_1 : Rect S1024x416 := Rect.unit (s := S1024x416) ![0, 0] S1024x416.size inb_S1024x416_S1024x416_0_0
abbrev r0_2 : Rect S208x400 := Rect.unit (s := S208x400) ![0, 0] S208x400.size inb_S208x400_S208x400_0_0
abbrev r0_3 : Rect S416x400 := Rect.unit (s := S416x400) ![0, 0] S416x400.size inb_S416x400_S416x400_0_0
abbrev r0_4 : Rect S400x400 := Rect.unit (s := S400x400) ![0, 0] S400x400.size inb_S400x400_S400x400_0_0
abbrev r0_5 : Rect S1x400 := Rect.unit (s := S1x400) ![0, 0] S1x400.size inb_S1x400_S1x400_0_0
abbrev r0_6 : Rect S1024x400 := Rect.unit (s := S1024x400) ![0, 0] S1024x400.size inb_S1024x400_S1024x400_0_0

def out0_6 (x0 : Vec F S1024x208 .f32) (x1 : Vec F S1024x416 .f32) (x2 : Vec F S208x400 .bf16) (x3 : Vec F S416x400 .bf16) (x4 : Vec F S400x400 .bf16) (x5 : Vec F S1x400 .f32) : Vec F S1024x400 .f32 :=
  View.canon [⟨r0_6, k0_pay1 (View.ld x0 r0_0) (View.ld x1 r0_1) (View.ld x2 r0_2) (View.ld x3 r0_3) (View.ld x4 r0_4) (View.ld x5 r0_5)⟩]

/-- The body reads the six input buffers whole and stores its value of them over the whole output buffer. -/
theorem sound_kernel0 (c : Dev nD) (E : Set ℕ) (i : grid0.Coords) (arg0 : Memref sig .tc .vmem S1024x208 .f32) (harg0 : arg0.IsWhole) (arg1 : Memref sig .tc .vmem S1024x416 .f32) (harg1 : arg1.IsWhole) (arg2 : Memref sig .tc .vmem S208x400 .bf16) (harg2 : arg2.IsWhole) (arg3 : Memref sig .tc .vmem S416x400 .bf16) (harg3 : arg3.IsWhole) (arg4 : Memref sig .tc .vmem S400x400 .bf16) (harg4 : arg4.IsWhole) (arg5 : Memref sig .tc .vmem S1x400 .f32) (harg5 : arg5.IsWhole) (arg6 : Memref sig .tc .vmem S1024x400 .f32) (harg6 : arg6.IsWhole)
    (x0 : Vec F S1024x208 .f32) (x1 : Vec F S1024x416 .f32) (x2 : Vec F S208x400 .bf16) (x3 : Vec F S416x400 .bf16) (x4 : Vec F S400x400 .bf16) (x5 : Vec F S1x400 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (out0_6 x0 x1 x2 x3 x4 x5)) -∗ K ⟨⟩))
      ⊢ wp frame (wpE (defs₀ (F := F)) Variants.none c none) E (cc0__block_kernel i arg0 harg0 arg1 harg1 arg2 harg2 arg3 harg3 arg4 harg4 arg5 harg5 arg6 harg6) K := by
  simp only [cc0__block_kernel_eq_skeleton]; unfold cc0__block_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1024x400.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem after0_6' (c : Dev nD) (t : Fin cfg0.N) : (dat0 V c).after 6 t = out0_6 ((dat0 V c).after 0 t) ((dat0 V c).after 1 t) ((dat0 V c).after 2 t) ((dat0 V c).after 3 t) ((dat0 V c).after 4 t) ((dat0 V c).after 5 t) := by dsimp only [dat0]

/-- Lets the body obligation name an input's contents before and after the body by one term. -/
theorem before0 (c : Dev nD) (t : Fin cfg0.N) (w : Fin 7) (hw : w ≠ 6) : ∀ d, (dat0 V c).before w t d = (dat0 V c).after w t :=
  match w, hw with
  | ⟨0, _⟩, _ | ⟨1, _⟩, _ | ⟨2, _⟩, _ | ⟨3, _⟩, _ | ⟨4, _⟩, _ | ⟨5, _⟩, _ => (dat0 V c).before_in_eq_fetched _ rfl (fun _ => rfl) (fun _ _ _ => rfl) (fun _ => rfl) t
  | ⟨6, _⟩, hw => absurd rfl hw

theorem body_obligation0 (c : Dev nD) : BodyObligation (dat0 (F := F) V c) (defs₀ (F := F)) Variants.none () Set.univ := fun t => by
  rw [bigSep_W0, bigSep_W0]
  simp (disch := decide) only [before0, after0_6']
  rewrite [show (dat0 V c).Φ t.succ = (dat0 V c).Φ t.castSucc from rfl, show (dat0 V c).owesAt () t.succ = (dat0 V c).owesAt () t.castSucc from rfl]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply (sound_kernel0 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.KernelIdeal.Fr

end
-- ==== Proof.KI.Region1.lean ====
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x416 := Rect.unit (s := S1024x416) ![0, 0] S1024x416.size inb_S1024x416_S1024x416_0_0
abbrev r1_1 : Rect S1024x400 := Rect.unit (s := S1024x400) ![0, 0] S1024x400.size inb_S1024x400_S1024x400_0_0
abbrev r1_2 : Rect S416x400 := Rect.unit (s := S416x400) ![0, 0] S416x400.size inb_S416x400_S416x400_0_0
abbrev r1_3 : Rect S400x400 := Rect.unit (s := S400x400) ![0, 0] S400x400.size inb_S400x400_S400x400_0_0
abbrev r1_4 : Rect S400x400 := Rect.unit (s := S400x400) ![0, 0] S400x400.size inb_S400x400_S400x400_0_0
abbrev r1_5 : Rect S1x400 := Rect.unit (s := S1x400) ![0, 0] S1x400.size inb_S1x400_S1x400_0_0
abbrev r1_6 : Rect S1024x400 := Rect.unit (s := S1024x400) ![0, 0] S1024x400.size inb_S1024x400_S1024x400_0_0

def out1_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k1_pay1 (View.ld x0 r1_0) (View.ld x1 r1_1) (View.ld x2 r1_2) (View.ld x3 r1_3) (View.ld x4 r1_4) (View.ld x5 r1_5)⟩]

/-- The body reads the six input buffers whole and stores its value of them over the whole output buffer. -/
theorem sound_kernel1 (c : Dev nD) (E : Set ℕ) (i : grid1.Coords) (arg0 : Memref sig .tc .vmem S1024x416 .f32) (harg0 : arg0.IsWhole) (arg1 : Memref sig .tc .vmem S1024x400 .f32) (harg1 : arg1.IsWhole) (arg2 : Memref sig .tc .vmem S416x400 .bf16) (harg2 : arg2.IsWhole) (arg3 : Memref sig .tc .vmem S400x400 .bf16) (harg3 : arg3.IsWhole) (arg4 : Memref sig .tc .vmem S400x400 .bf16) (harg4 : arg4.IsWhole) (arg5 : Memref sig .tc .vmem S1x400 .f32) (harg5 : arg5.IsWhole) (arg6 : Memref sig .tc .vmem S1024x400 .f32) (harg6 : arg6.IsWhole)
    (x0 : Vec F S1024x416 .f32) (x1 : Vec F S1024x400 .f32) (x2 : Vec F S416x400 .bf16) (x3 : Vec F S400x400 .bf16) (x4 : Vec F S400x400 .bf16) (x5 : Vec F S1x400 .f32) (K : PUnit → sProp 𝕄) :
    iprop(owns c arg0 fullShare x0 ∗ owns c arg1 fullShare x1 ∗ owns c arg2 fullShare x2 ∗ owns c arg3 fullShare x3 ∗ owns c arg4 fullShare x4 ∗ owns c arg5 fullShare x5 ∗ (∃ d, owns c arg6 fullShare d)
        ∗ (iprop(owns c arg0 fullShare x0 ∗ owns c arg1 fullShare x1 ∗ owns c arg2 fullShare x2 ∗ owns c arg3 fullShare x3 ∗ owns c arg4 fullShare x4 ∗ owns c arg5 fullShare x5 ∗ owns c arg6 fullShare (out1_6 x0 x1 x2 x3 x4 x5)) -∗ K ⟨⟩))
      ⊢ wp frame (wpE (defs₀ (F := F)) Variants.none c none) E (cc1__block_kernel i arg0 harg0 arg1 harg1 arg2 harg2 arg3 harg3 arg4 harg4 arg5 harg5 arg6 harg6) K := by
  simp only [cc1__block_kernel_eq_skeleton]; unfold cc1__block_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1024x400.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem after1_6' (c : Dev nD) (t : Fin cfg1.N) : (dat1 V c).after 6 t = out1_6 ((dat1 V c).after 0 t) ((dat1 V c).after 1 t) ((dat1 V c).after 2 t) ((dat1 V c).after 3 t) ((dat1 V c).after 4 t) ((dat1 V c).after 5 t) := by dsimp only [dat1]

/-- Lets the body obligation name an input's contents before and after the body by one term. -/
theorem before1 (c : Dev nD) (t : Fin cfg1.N) (w : Fin 7) (hw : w ≠ 6) : ∀ d, (dat1 V c).before w t d = (dat1 V c).after w t :=
  match w, hw with
  | ⟨0, _⟩, _ | ⟨1, _⟩, _ | ⟨2, _⟩, _ | ⟨3, _⟩, _ | ⟨4, _⟩, _ | ⟨5, _⟩, _ => (dat1 V c).before_in_eq_fetched _ rfl (fun _ => rfl) (fun _ _ _ => rfl) (fun _ => rfl) t
  | ⟨6, _⟩, hw => absurd rfl hw

theorem body_obligation1 (c : Dev nD) : BodyObligation (dat1 (F := F) V c) (defs₀ (F := F)) Variants.none () Set.univ := fun t => by
  rw [bigSep_W1, bigSep_W1]
  simp (disch := decide) only [before1, after1_6']
  rewrite [show (dat1 V c).Φ t.succ = (dat1 V c).Φ t.castSucc from rfl, show (dat1 V c).owesAt () t.succ = (dat1 V c).owesAt () t.castSucc from rfl]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.KernelIdeal.Fr

end
-- ==== Proof.KI.Region2.lean ====
import proofs.«429333_j2637109920279_1_alg».proof.Proof.KI.Region1

noncomputable section

namespace Cert.KernelIdeal.Fr

open Cert.KernelIdeal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k2_pay1 (View.ld x0 r1_0) (View.ld x1 r1_1) (View.ld x2 r1_2) (View.ld x3 r1_3) (View.ld x4 r1_4) (View.ld x5 r1_5)⟩]

/-- Regions 1 and 2 run one kernel function on one shape. -/
theorem kernel_eq2 : cc2__block_kernel (F := F) = cc1__block_kernel := rfl
theorem out_eq2 : out2_6 (F := F) = out1_6 := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem after2_6' (c : Dev nD) (t : Fin cfg2.N) : (dat2 V c).after 6 t = out2_6 ((dat2 V c).after 0 t) ((dat2 V c).after 1 t) ((dat2 V c).after 2 t) ((dat2 V c).after 3 t) ((dat2 V c).after 4 t) ((dat2 V c).after 5 t) := by dsimp only [dat2]

/-- Lets the body obligation name an input's contents before and after the body by one term. -/
theorem before2 (c : Dev nD) (t : Fin cfg2.N) (w : Fin 7) (hw : w ≠ 6) : ∀ d, (dat2 V c).before w t d = (dat2 V c).after w t :=
  match w, hw with
  | ⟨0, _⟩, _ | ⟨1, _⟩, _ | ⟨2, _⟩, _ | ⟨3, _⟩, _ | ⟨4, _⟩, _ | ⟨5, _⟩, _ => (dat2 V c).before_in_eq_fetched _ rfl (fun _ => rfl) (fun _ _ _ => rfl) (fun _ => rfl) t
  | ⟨6, _⟩, hw => absurd rfl hw

theorem body_obligation2 (c : Dev nD) : BodyObligation (dat2 (F := F) V c) (defs₀ (F := F)) Variants.none () Set.univ := fun t => by
  rw [bigSep_W2, bigSep_W2]
  simp (disch := decide) only [before2, after2_6', out_eq2]
  rewrite [show (dat2 V c).Φ t.succ = (dat2 V c).Φ t.castSucc from rfl, show (dat2 V c).owesAt () t.succ = (dat2 V c).owesAt () t.castSucc from rfl]
  sl_whnfR [defs₀, Defs.onTc]
  rewrite [kernel_eq2]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.KernelIdeal.Fr

end
-- ==== Proof.KI.Region3.lean ====
import proofs.«429333_j2637109920279_1_alg».proof.Proof.KI.Region1

noncomputable section

namespace Cert.KernelIdeal.Fr

open Cert.KernelIdeal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_6 (x0 : Vec F S1024x416 .f32) (x1 : Vec F S1024x400 .f32) (x2 : Vec F S416x400 .bf16) (x3 : Vec F S400x400 .bf16) (x4 : Vec F S400x400 .bf16) (x5 : Vec F S1x400 .f32) : Vec F S1024x400 .f32 :=
  View.canon [⟨r1_6, k3_pay1 (View.ld x0 r1_0) (View.ld x1 r1_1) (View.ld x2 r1_2) (View.ld x3 r1_3) (View.ld x4 r1_4) (View.ld x5 r1_5)⟩]

/-- Regions 1 and 3 run one kernel function on one shape. -/
theorem kernel_eq3 : cc3__block_kernel (F := F) = cc1__block_kernel := rfl
theorem out_eq3 : out3_6 (F := F) = out1_6 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem after3_6' (c : Dev nD) (t : Fin cfg3.N) : (dat3 V c).after 6 t = out3_6 ((dat3 V c).after 0 t) ((dat3 V c).after 1 t) ((dat3 V c).after 2 t) ((dat3 V c).after 3 t) ((dat3 V c).after 4 t) ((dat3 V c).after 5 t) := by dsimp only [dat3]

/-- Lets the body obligation name an input's contents before and after the body by one term. -/
theorem before3 (c : Dev nD) (t : Fin cfg3.N) (w : Fin 7) (hw : w ≠ 6) : ∀ d, (dat3 V c).before w t d = (dat3 V c).after w t :=
  match w, hw with
  | ⟨0, _⟩, _ | ⟨1, _⟩, _ | ⟨2, _⟩, _ | ⟨3, _⟩, _ | ⟨4, _⟩, _ | ⟨5, _⟩, _ => (dat3 V c).before_in_eq_fetched _ rfl (fun _ => rfl) (fun _ _ _ => rfl) (fun _ => rfl) t
  | ⟨6, _⟩, hw => absurd rfl hw

theorem body_obligation3 (c : Dev nD) : BodyObligation (dat3 (F := F) V c) (defs₀ (F := F)) Variants.none () Set.univ := fun t => by
  rw [bigSep_W3, bigSep_W3]
  simp (disch := decide) only [before3, after3_6', out_eq3]
  rewrite [show (dat3 V c).Φ t.succ = (dat3 V c).Φ t.castSucc from rfl, show (dat3 V c).owesAt () t.succ = (dat3 V c).owesAt () t.castSucc from rfl]
  sl_whnfR [defs₀, Defs.onTc]
  rewrite [kernel_eq3]
  iintro ⟨HΦ, Ho, ⟨%_, H0⟩, ⟨%_, H1⟩, ⟨%_, H2⟩, ⟨%_, H3⟩, ⟨%_, H4⟩, ⟨%_, H5⟩, ⟨%_, H6⟩⟩
  iapply (sound_kernel1 c Set.univ _ _ _ _ _ _ _ _ _ _ _ _ _ _ _ _ _ _ _ _ _ _)
  iframe H0 H1 H2 H3 H4 H5
  isplitl [H6]; · iexists _; iexact H6
  iintro ⟨H0, H1, H2, H3, H4, H5, H6⟩
  iframe

end Cert.KernelIdeal.Fr

end
-- ==== Proof.KI.Region4.lean ====
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal.Gen Idealize.ShloMosaic Idealize.ShloMosaic.TcCoe Idealize.ShloMosaic.Tactic
open Idealize.SL Idealize.SL.RA Idealize.SL.BI Idealize.SL.ProofMode Idealize.SL.Sem
open scoped Idealize.SL.BI
open Idealize.SL.BI.BIBase
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x1600 := Rect.unit (s := S512x1600) ![0, 0] S512x1600.size inb_S512x1600_S512x1600_0_0
abbrev r4_1 : Rect S1600x1 := Rect.unit (s := S1600x1) ![0, 0] S1600x1.size inb_S1600x1_S1600x1_0_0
abbrev r4_2 : Rect S1x1 := Rect.unit (s := S1x1) ![0, 0] S1x1.size inb_S1x1_S1x1_0_0
abbrev r4_3 : Rect S512x1 := Rect.unit (s := S512x1) ![0, 0] S512x1.size inb_S512x1_S512x1_0_0

def out4_3 (x0 : Vec F S512x1600 .f32) (x1 : Vec F S1600x1 .bf16) (x2 : Vec F S1x1 .f32) : Vec F S512x1 .f32 :=
  View.canon [⟨r4_3, k4_pay1 (View.ld x0 r4_0) (View.ld x1 r4_1) (View.ld x2 r4_2)⟩]

/-- The body reads the three input buffers whole and stores its value of them over the whole output buffer. -/
theorem sound_kernel4 (c : Dev nD) (E : Set ℕ) (i : grid4.Coords)
    (arg0 : Memref sig .tc .vmem S512x1600 .f32) (harg0 : arg0.IsWhole) (arg1 : Memref sig .tc .vmem S1600x1 .bf16) (harg1 : arg1.IsWhole)
    (arg2 : Memref sig .tc .vmem S1x1 .f32) (harg2 : arg2.IsWhole) (arg3 : Memref sig .tc .vmem S512x1 .f32) (harg3 : arg3.IsWhole)
    (x0 : Vec F S512x1600 .f32) (x1 : Vec F S1600x1 .bf16) (x2 : Vec F S1x1 .f32) (K : PUnit → sProp 𝕄) :
    iprop(owns c arg0 fullShare x0 ∗ owns c arg1 fullShare x1 ∗ owns c arg2 fullShare x2
        ∗ (∃ d, owns c arg3 fullShare d)
        ∗ (iprop(owns c arg0 fullShare x0 ∗ owns c arg1 fullShare x1 ∗ owns c arg2 fullShare x2
            ∗ owns c arg3 fullShare (out4_3 x0 x1 x2)) -∗ K ⟨⟩))
      ⊢ wp frame (wpE (defs₀ (F := F)) Variants.none c none) E (cc4__clf_kernel i arg0 harg0 arg1 harg1 arg2 harg2 arg3 harg3) K := by
  simp only [cc4__clf_kernel_eq_skeleton]; unfold cc4__clf_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S512x1.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]

theorem after4_3' (c : Dev nD) (t : Fin cfg4.N) : (dat4 V c).after 3 t = out4_3 ((dat4 V c).after 0 t) ((dat4 V c).after 1 t) ((dat4 V c).after 2 t) := by dsimp only [dat4]

/-- Lets the body obligation name an input's contents before and after the body by one term. -/
theorem before4 (c : Dev nD) (t : Fin cfg4.N) (w : Fin 4) (hw : w ≠ 3) : ∀ d, (dat4 V c).before w t d = (dat4 V c).after w t :=
  match w, hw with
  | ⟨0, _⟩, _ | ⟨1, _⟩, _ | ⟨2, _⟩, _ => (dat4 V c).before_in_eq_fetched _ rfl (fun _ => rfl) (fun _ _ _ => rfl) (fun _ => rfl) t
  | ⟨3, _⟩, hw => absurd rfl hw

theorem body_obligation4 (c : Dev nD) : BodyObligation (dat4 (F := F) V c) (defs₀ (F := F)) Variants.none () Set.univ := fun t => by
  rw [bigSep_W4, bigSep_W4]
  simp (disch := decide) only [before4, after4_3']
  rewrite [show (dat4 V c).Φ t.succ = (dat4 V c).Φ t.castSucc from rfl, show (dat4 V c).owesAt () t.succ = (dat4 V c).owesAt () t.castSucc from rfl]
  sl_whnfR [defs₀, Defs.onTc]
  iintro ⟨HΦ, Ho, ⟨%_, H0⟩, ⟨%_, H1⟩, ⟨%_, H2⟩, ⟨%_, H3⟩⟩
  iapply (sound_kernel4 c Set.univ _ _ _ _ _ _ _ _ _ _ _ _ _)
  iframe H0 H1 H2
  isplitl [H3]; · iexists _; iexact H3
  iintro ⟨H0, H1, H2, H3⟩
  iframe

end Cert.KernelIdeal.Fr

end
-- ==== Proof.KI.Fold.lean ====
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import proofs.«429333_j2637109920279_1_alg».proof.Proof.Gen.KernelIdeal.Regions
import proofs.«429333_j2637109920279_1_alg».proof.Proof.KI.Region0
import proofs.«429333_j2637109920279_1_alg».proof.Proof.KI.Region1
import proofs.«429333_j2637109920279_1_alg».proof.Proof.KI.Region2
import proofs.«429333_j2637109920279_1_alg».proof.Proof.KI.Region3
import proofs.«429333_j2637109920279_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe

variable {F : FTy → Type} [FloatOps F]

variable (m : (ℓ : Loc nD τ sig) → Buf (Elt F) ℓ)

-- `W j c`: core `c`'s buffers after the first `j` items; a host stretch applies its operations, a region replaces its windows' arrays.
abbrev W0 : Dev nD → Valuation τ sig (Elt F) := fun c b => m (c, b)
abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
abbrev W2 : Dev nD → Valuation τ sig (Elt F) := fun c => StableHlo.after hostOps0_1 (W1 m c)
theorem W2_of (c : Dev nD) (r : Ref sig .tc) (h : r ∉ hostOps0_1_W) : W2 m c r = W1 m c r :=
  StableHlo.after_of_writes_sub hostOps0_1 _ hostOps0_1_writes h
abbrev W3 : Dev nD → Valuation τ sig (Elt F) := fun c => StableHlo.after hostOps0_2 (W2 m c)
theorem W3_of (c : Dev nD) (r : Ref sig .tc) (h : r ∉ hostOps0_2_W) : W3 m c r = W2 m c r :=
  StableHlo.after_of_writes_sub hostOps0_2 _ hostOps0_2_writes h
abbrev W4 : Dev nD → Valuation τ sig (Elt F) := fun c => StableHlo.after hostOps0_3 (W3 m c)
theorem W4_of (c : Dev nD) (r : Ref sig .tc) (h : r ∉ hostOps0_3_W) : W4 m c r = W3 m c r :=
  StableHlo.after_of_writes_sub hostOps0_3 _ hostOps0_3_writes h
abbrev V4 : (c : Dev nD) → (b : Ref sig .tc) → Buf (Elt F) ((c : Thread nD τ).loc b) := fun c b => W4 m c b
def W5 (c : Dev nD) : Valuation τ sig (Elt F) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N :=
  Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) :=
  Pipeline.withArrays_of_ne spec0 c _ _ b hb
abbrev W6 : Dev nD → Valuation τ sig (Elt F) := fun c => StableHlo.after hostOps1 (W5 m c)
theorem W6_of (c : Dev nD) (r : Ref sig .tc) (h : r ∉ hostOps1_W) : W6 m c r = W5 m c r :=
  StableHlo.after_of_writes_sub hostOps1 _ hostOps1_writes h
abbrev V6 : (c : Dev nD) → (b : Ref sig .tc) → Buf (Elt F) ((c : Thread nD τ).loc b) := fun c b => W6 m c b
def W7 (c : Dev nD) : Valuation τ sig (Elt F) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) :=
  Pipeline.withArrays_of_ne spec1 c _ _ b hb
abbrev W8 : Dev nD → Valuation τ sig (Elt F) := fun c => StableHlo.after hostOps2 (W7 m c)
theorem W8_of (c : Dev nD) (r : Ref sig .tc) (h : r ∉ hostOps2_W) : W8 m c r = W7 m c r :=
  StableHlo.after_of_writes_sub hostOps2 _ hostOps2_writes h
abbrev V8 : (c : Dev nD) → (b : Ref sig .tc) → Buf (Elt F) ((c : Thread nD τ).loc b) := fun c b => W8 m c b
def W9 (c : Dev nD) : Valuation τ sig (Elt F) :=
  Pipeline.withArrays spec2 c (W8 m c) fun w => (dat2 (V8 m) c).arrAt w cfg2.N
theorem W9_arr (c : Dev nD) (w : Fin cfg2.W) :
    W9 m c (Proc.devRef .tc (Pipeline.arrRef spec2 w)) = (dat2 (V8 m) c).arrAt w cfg2.N :=
  Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) :=
  Pipeline.withArrays_of_ne spec2 c _ _ b hb
abbrev W10 : Dev nD → Valuation τ sig (Elt F) := fun c => StableHlo.after hostOps3 (W9 m c)
theorem W10_of (c : Dev nD) (r : Ref sig .tc) (h : r ∉ hostOps3_W) : W10 m c r = W9 m c r :=
  StableHlo.after_of_writes_sub hostOps3 _ hostOps3_writes h
abbrev V10 : (c : Dev nD) → (b : Ref sig .tc) → Buf (Elt F) ((c : Thread nD τ).loc b) := fun c b => W10 m c b
def W11 (c : Dev nD) : Valuation τ sig (Elt F) :=
  Pipeline.withArrays spec3 c (W10 m c) fun w => (dat3 (V10 m) c).arrAt w cfg3.N
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb
abbrev W12 : Dev nD → Valuation τ sig (Elt F) := fun c => StableHlo.after hostOps4 (W11 m c)
theorem W12_of (c : Dev nD) (r : Ref sig .tc) (h : r ∉ hostOps4_W) : W12 m c r = W11 m c r :=
  StableHlo.after_of_writes_sub hostOps4 _ hostOps4_writes h
abbrev V12 : (c : Dev nD) → (b : Ref sig .tc) → Buf (Elt F) ((c : Thread nD τ).loc b) := fun c b => W12 m c b
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N :=
  Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) :=
  Pipeline.withArrays_of_ne spec4 c _ _ b hb

end Cert.KernelIdeal.Fr

end
-- ==== Proof.KI.Run.lean ====
import proofs.«429333_j2637109920279_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def pdats : (p : Fin 5) → (c : Dev nD) → Dat τ (Elt F) Unit ℕ (UR sig nD τ) ℕ (Pipeline.pin (pcfgs (F := F)) adm p) c
  | ⟨0, _⟩ => fun c => dat0 (V4 m) c
  | ⟨1, _⟩ => fun c => dat1 (V6 m) c
  | ⟨2, _⟩ => fun c => dat2 (V8 m) c
  | ⟨3, _⟩ => fun c => dat3 (V10 m) c
  | ⟨4, _⟩ => fun c => dat4 (V12 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m c) ∗ ∃ r, prngReg c r)

set_option backward.isDefEq.respectTransparency.types false in
-- Region `p` as a segment: entered with the buffers at `Wi`, left with them at `Wo`, which is `Wi` with the region's arrays replaced.
def reg (p : Fin 5) (lp : Pipeline.LaunchFacts (nD := nD) (τ := τ) cfgs p) (Wi Wo : Dev nD → Valuation τ sig (Elt F))
    (hb : ∀ c, BodyObligation (pdats m p c) defs₀ 𝒱₀ () Set.univ)
    (h : ∀ c, (∀ t, (pdats m p c).Φ t = Pipeline.ΦA (Pipeline.pin (pcfgs (F := F)) adm p).spec c) ∧ (∀ t, (pdats m p c).owed t = 0)
      ∧ (∀ w, (pdats m p c).q w = fullShare) ∧ (∀ w, (pdats m p c).A w = Wi c (Pipeline.arrRef (Pipeline.pin (pcfgs (F := F)) adm p).spec w))
      ∧ (pdats m p c).recorded 0 = Set.univ
      ∧ Wo c = Pipeline.withArrays (Pipeline.pin (pcfgs (F := F)) adm p).spec c (Wi c) fun w => (pdats m p c).arrAt w (Pipeline.pin (pcfgs (F := F)) adm p).N := by
      exact fun _ => ⟨fun _ => rfl, fun _ => rfl, fun _ => rfl, fun _ => rfl, rfl, rfl⟩) :
    Pipeline.RegionSeg (pcfgs (F := F)) adm (pdats m) () defs₀ 𝒱₀ L lv p where
  win := lp.win.to₀
  block_pos := lp.block_pos
  stage_whole := lp.stage_whole
  K := PEmpty
  osem k := k.elim
  ho := Pipeline.OwnSemFacts.none _
  hbody c := (hb c).loose
  hwaits := Pipeline.hwaits_of_owed_zero _ _ _ _ L lv p fun c => (h c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Wi c b
  hentry c := by
    rw [Pipeline.ownSems0_none]
    have hsplit := Pipeline.arrays_of_unscopedBufs (p := p) (pcfgs (F := F)) adm (pdats m) lp.win lp.arr_whole c
      ((pdats m p c).share_full (h c).2.2.1) (fun b => Wi c b) (h c).2.2.2.1
    rw [Pipeline.unscopedBufs_held] at hsplit
    unfold Pipeline.Dat.owesAt Pipeline.owesWithin Pipeline.Dat.bound
    rw [(h c).2.1, (h c).2.2.2.2.1]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [(h c).1]; unfold Pipeline.ΦA
    iintro ⟨Hp, -, Hr⟩
    isplitl [Hr]; · iexact Hr
    iexact Hp
  hout c := by
    rw [Pipeline.ownSems0_none, (h c).1]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lp.win lp.arr_whole c (pdats m) ((pdats m p c).share_full (h c).2.2.1) (fun b => Wi c b) (fun b => Wo c b)
      ((pdats m p c).arrAt · (Pipeline.pin (pcfgs (F := F)) adm p).N)
      (fun w => by rw [(h c).2.2.2.2.2, Pipeline.withArrays_arr _ lp.win.arr_inj])
      (fun b hb => by
        rw [(h c).2.2.2.2.2]
        exact Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [(h c).2.1]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg m 0 launch0 (W4 m) (W5 m) (body_obligation0 (V4 m))),
    .host (hseg hostOps1 hostOps1_sub hostOps1_fresh (W5 m)),
    .region (reg m 1 launch1 (W6 m) (W7 m) (body_obligation1 (V6 m))),
    .host (hseg hostOps2 hostOps2_sub hostOps2_fresh (W7 m)),
    .region (reg m 2 launch2 (W8 m) (W9 m) (body_obligation2 (V8 m))),
    .host (hseg hostOps3 hostOps3_sub hostOps3_fresh (W9 m)),
    .region (reg m 3 launch3 (W10 m) (W11 m) (body_obligation3 (V10 m))),
    .host (hseg hostOps4 hostOps4_sub hostOps4_fresh (W11 m)),
    .region (reg m 4 launch4 (W12 m) (W13 m) (body_obligation4 (V12 m))) ]
theorem main_run (c : Dev nD) : main (F := F) c = Pipeline.Seg.run (segs m) := (main_chain c).trans (by chain_rfl)

set_option backward.isDefEq.respectTransparency.types false in
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W13 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun _ h => h)

end Cert.KernelIdeal.Fr

end
-- ==== Proof.KI.Ends.lean ====
import proofs.«429333_j2637109920279_1_alg».proof.Proof.KI.Fold
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import proofs.«429333_j2637109920279_1_alg».proof.Proof.Gen.KernelIdeal.Regions
import proofs.«429333_j2637109920279_1_alg».proof.Proof.KI.Region0
import proofs.«429333_j2637109920279_1_alg».proof.Proof.KI.Region1
import proofs.«429333_j2637109920279_1_alg».proof.Proof.KI.Region2
import proofs.«429333_j2637109920279_1_alg».proof.Proof.KI.Region3
import proofs.«429333_j2637109920279_1_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe

variable {F : FTy → Type} [FloatOps F]

variable (m : (ℓ : Loc nD τ sig) → Buf (Elt F) ℓ)

-- no host stretch from region 0 on writes `b`, and `b` is no window's array
abbrev Kept (b : Ref sig .tc) : Prop :=
  b ∉ hostOps1_W ∧ b ∉ hostOps2_W ∧ b ∉ hostOps3_W ∧ b ∉ hostOps4_W ∧ (∀ w, Pipeline.arrRef spec0 w ≠ b)
    ∧ (∀ w, Pipeline.arrRef spec1 w ≠ b) ∧ (∀ w, Pipeline.arrRef spec2 w ≠ b) ∧ (∀ w, Pipeline.arrRef spec3 w ≠ b)
    ∧ ∀ w, Pipeline.arrRef spec4 w ≠ b

theorem W13_eq_W4 (c : Dev nD) (b : Ref sig .tc) (h : Kept b) : W13 m c (Proc.devRef .tc b) = W4 m c (Proc.devRef .tc b) := by
  obtain ⟨h1, h2, h3, h4, r0, r1, r2, r3, r4⟩ := h
  rw [W13_of_ne m c b r4, W12_of m c b h4, W11_of_ne m c b r3, W10_of m c b h3, W9_of_ne m c b r2, W8_of m c b h2,
    W7_of_ne m c b r1, W6_of m c b h1, W5_of_ne m c b r0]

theorem W4_eq_launch (c : Dev nD) (b : Ref sig .tc)
    (h0 : b ∉ hostOps0_W) (h01 : b ∉ hostOps0_1_W) (h02 : b ∉ hostOps0_2_W) (h03 : b ∉ hostOps0_3_W) :
    W4 m c (Proc.devRef .tc b) = m ((c : Thread nD τ).loc b) := by
  rw [W4_of m c b h03, W3_of m c b h02, W2_of m c b h01, W1_of m c b h0]

-- a buffer that nothing writes ends as launched
theorem W13_eq_launch (c : Dev nD) (b : Ref sig .tc)
    (h : (b ∉ hostOps0_W ∧ b ∉ hostOps0_1_W ∧ b ∉ hostOps0_2_W ∧ b ∉ hostOps0_3_W) ∧ Kept b) :
    W13 m c (Proc.devRef .tc b) = m ((c : Thread nD τ).loc b) :=
  (W13_eq_W4 m c b h.2).trans (W4_eq_launch m c b h.1.1 h.1.2.1 h.1.2.2.1 h.1.2.2.2)

theorem W13_main_arg8 (c : Dev nD) : W13 m c (Proc.devRef .tc main_arg8) = m ((c : Thread nD τ).loc main_arg8) :=
  W13_eq_launch m c main_arg8 (by decide)
theorem W13_main_arg9 (c : Dev nD) : W13 m c (Proc.devRef .tc main_arg9) = m ((c : Thread nD τ).loc main_arg9) :=
  W13_eq_launch m c main_arg9 (by decide)
theorem W13_main_v188 (c : Dev nD) : W13 m c (Proc.devRef .tc main_v188) = (dat4 (V12 m) c).arrAt 3 cfg4.N :=
  W13_arr m c 3
theorem W13_main_v21 (c : Dev nD) : W13 m c (Proc.devRef .tc main_v21) = W4 m c (Proc.devRef .tc main_v21) :=
  W13_eq_W4 m c main_v21 (by decide)
theorem W5_main_v60 (c : Dev nD) : W5 m c (Proc.devRef .tc main_v60) = (dat0 (V4 m) c).arrAt 6 cfg0.N :=
  W5_arr m c 6
theorem W7_main_v100 (c : Dev nD) : W7 m c (Proc.devRef .tc main_v100) = (dat1 (V6 m) c).arrAt 6 cfg1.N :=
  W7_arr m c 6
theorem W9_main_v140 (c : Dev nD) : W9 m c (Proc.devRef .tc main_v140) = (dat2 (V8 m) c).arrAt 6 cfg2.N :=
  W9_arr m c 6
theorem W11_main_v180 (c : Dev nD) : W11 m c (Proc.devRef .tc main_v180) = (dat3 (V10 m) c).arrAt 6 cfg3.N :=
  W11_arr m c 6

end Cert.KernelIdeal.Fr

end
-- ==== Proof.KI.Frame.lean ====
import proofs.«429333_j2637109920279_1_alg».proof.Proof.Gen.KernelIdeal.Launch
import proofs.«429333_j2637109920279_1_alg».proof.Proof.Gen.KernelIdeal.Skeleton
import proofs.«429333_j2637109920279_1_alg».proof.Proof.Gen.KernelIdeal.Points
import proofs.«429333_j2637109920279_1_alg».proof.Proof.KI.Run
import proofs.«429333_j2637109920279_1_alg».proof.Proof.KI.Ends
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

-- the two result buffers read at the last boundary; nothing writes an argument
theorem run_results : θ_run defs (onTc (τ := τ) (main (F := F))) ⟨m, fun _ => 0, ρ⟩ (fun r => ∀ c : Dev nD,
      r.2.mem ((c.tc : Thread nD τ).loc main_v188) = W13 m c (Proc.devRef .tc main_v188)
      ∧ r.2.mem ((c.tc : Thread nD τ).loc main_v21) = W13 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    refine ⟨h c _ (mem_uc main_v188 (by decide)), h c _ (mem_uc main_v21 (by decide)),
      ?_, ?_, ?_, ?_, ?_, ?_, ?_, ?_, ?_, ?_, ?_, ?_, ?_, ?_⟩ <;>
    exact (h c _ (mem_uc _ (by decide))).trans (W13_eq_launch m c _ (by decide))) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2.2) (run_results m ρ)

end Cert.KernelIdeal.Fr

end
-- ==== Proof.RI.Run.lean ====
import proofs.«429333_j2637109920279_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ StableHlo.nullary main_c (fun i => lit0 (S26.rowMajor i)),
    StableHlo.unary main_arg2 main_v0 (extractStridedSlice S13x16 ![0, 0] · slices_S1300013x16_S13x16_0_0),
    StableHlo.unary main_v0 main_v1 (broadcastInDim S1x13x16 ![1, 2] bcast_S13x16_S1x13x16_1_2),
    StableHlo.unary main_arg0 main_v2 (broadcastInDim S8192x13x1 ![0, 1] bcast_S8192x13_S8192x13x1_0_1),
    StableHlo.unary main_v1 main_v3 (broadcastInDim S8192x13x16 ![0, 1, 2] bcast_S1x13x16_S8192x13x16_0_1_2),
    StableHlo.unary main_v2 main_v4 (broadcastInDim S8192x13x16 ![0, 1, 2] bcast_S8192x13x1_S8192x13x16_0_1_2),
    StableHlo.binary main_v3 main_v4 main_v5 mulf,
    StableHlo.unary main_c main_v6 (broadcastInDim S1x26 ![1] bcast_S26_S1x26_1),
    StableHlo.unary main_v6 main_v7 (broadcastInDim S8192x26 ![0, 1] bcast_S1x26_S8192x26_0_1),
    StableHlo.binary main_arg1 main_v7 main_v8 addi,
    StableHlo.nullary main_c_0 (constantI S_ 32 0#32),
    StableHlo.unary main_c_0 main_v9 (broadcastInDim S8192x26 ![] bcast_S_S8192x26),
    StableHlo.binary main_v8 main_v9 main_v10 (cmpi .slt),
    StableHlo.nullary main_c_1 (constantI S_ 32 1300013#32),
    StableHlo.unary main_c_1 main_v11 (broadcastInDim S8192x26 ![] bcast_S_S8192x26),
    StableHlo.binary main_v8 main_v11 main_v12 addi,
    StableHlo.ternary main_v10 main_v12 main_v8 main_v13 select,
    StableHlo.unary main_v13 main_v14 (broadcastInDim S8192x26x1 ![0, 1] bcast_S8192x26_S8192x26x1_0_1),
    StableHlo.binary main_arg2 main_v14 main_v15 (fun x i => Host.gather gather_S1300013x16_S8192x26x1_S8192x26x16_2_0_n_n_0_2_116 x i),
    StableHlo.reshape main_v5 main_v16 rfl shapeCasts_S8192x13x16_S8192x208,
    StableHlo.reshape main_v15 main_v17 rfl shapeCasts_S8192x26x16_S8192x416,
    StableHlo.TRef.binary (.of main_v5) (.of main_v5) main_call0.v0 mulf,
    StableHlo.TRef.nullary main_call0.cst (constant S_ .f32 0x00000000#32),
    StableHlo.TRef.binary main_call0.v0 main_call0.cst main_call0.v1 (fun x v => Host.reduceAdd x v reducesTo_S8192x13x16_S_d0_1_2 h_S_),
    StableHlo.TRef.unary main_call0.v1 main_call0.v2 Host.sqrt,
    StableHlo.TRef.binary (.of main_v15) (.of main_v15) main_call1.v0 mulf,
    StableHlo.TRef.nullary main_call1.cst (constant S_ .f32 0x00000000#32),
    StableHlo.TRef.binary main_call1.v0 main_call1.cst main_call1.v1 (fun x v => Host.reduceAdd x v reducesTo_S8192x26x16_S_d0_1_2 h_S_),
    StableHlo.TRef.unary main_call1.v1 main_call1.v2 Host.sqrt,
    StableHlo.binary main_v18 main_v19 main_v20 addf ]

abbrev opsB0 : List (HloOp τ sig (Elt F)) :=
  [ StableHlo.unary main_arg10 main_v21 (extractStridedSlice S2 ![0] · slices_S8_S2_0),
    StableHlo.unary main_arg10 main_v22 (extractStridedSlice S2 ![2] · slices_S8_S2_2),
    StableHlo.unary main_arg10 main_v23 (extractStridedSlice S4 ![4] · slices_S8_S4_4),
    StableHlo.unary main_v21 main_v24 (extractStridedSlice S1 ![0] · slices_S2_S1_0),
    StableHlo.reshape main_v24 main_v25 rfl shapeCasts_S1_S_,
    StableHlo.unary main_v25 main_v26 (broadcastInDim S8192x208 ![] bcast_S_S8192x208),
    StableHlo.binary main_v26 main_v16 main_v27 mulf,
    StableHlo.nullary main_cst (constant S_ .f32 0x00000000#32),
    StableHlo.binary main_v21 main_cst main_v28 (fun x v => Host.reduceAdd x v reducesTo_S2_S_d0 h_S_),
    StableHlo.unary main_v21 main_v29 (extractStridedSlice S1 ![0] · slices_S2_S1_0),
    StableHlo.reshape main_v29 main_v30 rfl shapeCasts_S1_S_,
    StableHlo.binary main_v28 main_v30 main_v31 subf,
    StableHlo.unary main_v31 main_v32 (broadcastInDim S8192x208 ![] bcast_S_S8192x208),
    StableHlo.binary main_v27 main_v32 main_v33 addf,
    StableHlo.unary main_v22 main_v34 (extractStridedSlice S1 ![1] · slices_S2_S1_1),
    StableHlo.reshape main_v34 main_v35 rfl shapeCasts_S1_S_,
    StableHlo.unary main_v35 main_v36 (broadcastInDim S8192x416 ![] bcast_S_S8192x416),
    StableHlo.binary main_v36 main_v17 main_v37 mulf,
    StableHlo.nullary main_cst_2 (constant S_ .f32 0x00000000#32),
    StableHlo.binary main_v22 main_cst_2 main_v38 (fun x v => Host.reduceAdd x v reducesTo_S2_S_d0 h_S_),
    StableHlo.unary main_v22 main_v39 (extractStridedSlice S1 ![1] · slices_S2_S1_1),
    StableHlo.reshape main_v39 main_v40 rfl shapeCasts_S1_S_,
    StableHlo.binary main_v38 main_v40 main_v41 subf,
    StableHlo.unary main_v41 main_v42 (broadcastInDim S8192x416 ![] bcast_S_S8192x416),
    StableHlo.binary main_v37 main_v42 main_v43 addf,
    StableHlo.binary main_v33 main_arg3 main_v44 (fun l r => Host.dotGeneral dot_S8192x208_S208x400_S8192x400_1_0_0_1_n_n none l r),
    StableHlo.binary main_v43 main_arg4 main_v45 (fun l r => Host.dotGeneral dot_S8192x416_S416x400_S8192x400_1_0_0_1_n_n none l r),
    StableHlo.binary main_v44 main_v45 main_v46 addf,
    StableHlo.TRef.nullary main_call2.cst (constant S_ .f32 0x00000000#32),
    StableHlo.TRef.unary main_call2.cst main_call2.v0 (broadcastInDim S8192x400 ![] bcast_S_S8192x400),
    StableHlo.TRef.binary (.of main_v46) main_call2.v0 main_call2.v1 maximumf,
    StableHlo.unary main_arg6 main_v48 (extractStridedSlice S1x1x400x400 ![0, 0, 0, 0] · slices_S4x4x400x400_S1x1x400x400_0_0_0_0),
    StableHlo.reshape main_v48 main_v49 rfl shapeCasts_S1x1x400x400_S400x400,
    StableHlo.binary main_v47 main_v49 main_v50 (fun l r => Host.dotGeneral dot_S8192x400_S400x400_S8192x400_1_0_0_1_n_n none l r),
    StableHlo.unary main_arg7 main_v51 (extractStridedSlice S1x1x400 ![0, 0, 0] · slices_S4x4x400_S1x1x400_0_0_0),
    StableHlo.reshape main_v51 main_v52 rfl shapeCasts_S1x1x400_S400,
    StableHlo.unary main_v52 main_v53 (broadcastInDim S1x400 ![1] bcast_S400_S1x400_1),
    StableHlo.unary main_v53 main_v54 (broadcastInDim S8192x400 ![0, 1] bcast_S1x400_S8192x400_0_1),
    StableHlo.binary main_v50 main_v54 main_v55 addf,
    StableHlo.unary main_v23 main_v56 (extractStridedSlice S1 ![0] · slices_S4_S1_0),
    StableHlo.reshape main_v56 main_v57 rfl shapeCasts_S1_S_,
    StableHlo.unary main_v57 main_v58 (broadcastInDim S8192x400 ![] bcast_S_S8192x400),
    StableHlo.binary main_v58 main_v55 main_v59 mulf,
    StableHlo.nullary main_cst_3 (constant S_ .f32 0x00000000#32),
    StableHlo.binary main_v23 main_cst_3 main_v60 (fun x v => Host.reduceAdd x v reducesTo_S4_S_d0 h_S_),
    StableHlo.unary main_v23 main_v61 (extractStridedSlice S1 ![0] · slices_S4_S1_0),
    StableHlo.reshape main_v61 main_v62 rfl shapeCasts_S1_S_,
    StableHlo.binary main_v60 main_v62 main_v63 subf,
    StableHlo.unary main_v63 main_v64 (broadcastInDim S8192x400 ![] bcast_S_S8192x400),
    StableHlo.binary main_v59 main_v64 main_v65 addf ]

abbrev opsB1 : List (HloOp τ sig (Elt F)) :=
  [ StableHlo.unary main_arg11 main_v66 (extractStridedSlice S3 ![0] · slices_S10_S3_0),
    StableHlo.unary main_arg11 main_v67 (extractStridedSlice S3 ![3] · slices_S10_S3_3),
    StableHlo.unary main_arg11 main_v68 (extractStridedSlice S4 ![6] · slices_S10_S4_6),
    StableHlo.unary main_v66 main_v69 (extractStridedSlice S1 ![1] · slices_S3_S1_1),
    StableHlo.reshape main_v69 main_v70 rfl shapeCasts_S1_S_,
    StableHlo.unary main_v70 main_v71 (broadcastInDim S8192x416 ![] bcast_S_S8192x416),
    StableHlo.binary main_v71 main_v17 main_v72 mulf,
    StableHlo.nullary main_cst_4 (constant S_ .f32 0x00000000#32),
    StableHlo.binary main_v66 main_cst_4 main_v73 (fun x v => Host.reduceAdd x v reducesTo_S3_S_d0 h_S_),
    StableHlo.unary main_v66 main_v74 (extractStridedSlice S1 ![1] · slices_S3_S1_1),
    StableHlo.reshape main_v74 main_v75 rfl shapeCasts_S1_S_,
    StableHlo.binary main_v73 main_v75 main_v76 subf,
    StableHlo.unary main_v76 main_v77 (broadcastInDim S8192x416 ![] bcast_S_S8192x416),
    StableHlo.binary main_v72 main_v77 main_v78 addf,
    StableHlo.unary main_v67 main_v79 (extractStridedSlice S1 ![2] · slices_S3_S1_2),
    StableHlo.reshape main_v79 main_v80 rfl shapeCasts_S1_S_,
    StableHlo.unary main_v80 main_v81 (broadcastInDim S8192x400 ![] bcast_S_S8192x400),
    StableHlo.binary main_v81 main_v65 main_v82 mulf,
    StableHlo.nullary main_cst_5 (constant S_ .f32 0x00000000#32),
    StableHlo.binary main_v67 main_cst_5 main_v83 (fun x v => Host.reduceAdd x v reducesTo_S3_S_d0 h_S_),
    StableHlo.unary main_v67 main_v84 (extractStridedSlice S1 ![2] · slices_S3_S1_2),
    StableHlo.reshape main_v84 main_v85 rfl shapeCasts_S1_S_,
    StableHlo.binary main_v83 main_v85 main_v86 subf,
    StableHlo.unary main_v86 main_v87 (broadcastInDim S8192x400 ![] bcast_S_S8192x400),
    StableHlo.binary main_v82 main_v87 main_v88 addf,
    StableHlo.binary main_v78 main_arg4 main_v89 (fun l r => Host.dotGeneral dot_S8192x416_S416x400_S8192x400_1_0_0_1_n_n none l r),
    StableHlo.binary main_v88 main_arg5 main_v90 (fun l r => Host.dotGeneral dot_S8192x400_S400x400_S8192x400_1_0_0_1_n_n none l r),
    StableHlo.binary main_v89 main_v90 main_v91 addf,
    StableHlo.TRef.nullary main_call3.cst (constant S_ .f32 0x00000000#32),
    StableHlo.TRef.unary main_call3.cst main_call3.v0 (broadcastInDim S8192x400 ![] bcast_S_S8192x400),
    StableHlo.TRef.binary (.of main_v91) main_call3.v0 main_call3.v1 maximumf,
    StableHlo.unary main_arg6 main_v93 (extractStridedSlice S1x1x400x400 ![1, 1, 0, 0] · slices_S4x4x400x400_S1x1x400x400_1_1_0_0),
    StableHlo.reshape main_v93 main_v94 rfl shapeCasts_S1x1x400x400_S400x400,
    StableHlo.binary main_v92 main_v94 main_v95 (fun l r => Host.dotGeneral dot_S8192x400_S400x400_S8192x400_1_0_0_1_n_n none l r),
    StableHlo.unary main_arg7 main_v96 (extractStridedSlice S1x1x400 ![1, 1, 0] · slices_S4x4x400_S1x1x400_1_1_0),
    StableHlo.reshape main_v96 main_v97 rfl shapeCasts_S1x1x400_S400,
    StableHlo.unary main_v97 main_v98 (broadcastInDim S1x400 ![1] bcast_S400_S1x400_1),
    StableHlo.unary main_v98 main_v99 (broadcastInDim S8192x400 ![0, 1] bcast_S1x400_S8192x400_0_1),
    StableHlo.binary main_v95 main_v99 main_v100 addf,
    StableHlo.unary main_v68 main_v101 (extractStridedSlice S1 ![1] · slices_S4_S1_1),
    StableHlo.reshape main_v101 main_v102 rfl shapeCasts_S1_S_,
    StableHlo.unary main_v102 main_v103 (broadcastInDim S8192x400 ![] bcast_S_S8192x400),
    StableHlo.binary main_v103 main_v100 main_v104 mulf,
    StableHlo.nullary main_cst_6 (constant S_ .f32 0x00000000#32),
    StableHlo.binary main_v68 main_cst_6 main_v105 (fun x v => Host.reduceAdd x v reducesTo_S4_S_d0 h_S_),
    StableHlo.unary main_v68 main_v106 (extractStridedSlice S1 ![1] · slices_S4_S1_1),
    StableHlo.reshape main_v106 main_v107 rfl shapeCasts_S1_S_,
    StableHlo.binary main_v105 main_v107 main_v108 subf,
    StableHlo.unary main_v108 main_v109 (broadcastInDim S8192x400 ![] bcast_S_S8192x400),
    StableHlo.binary main_v104 main_v109 main_v110 addf ]

abbrev opsB2 : List (HloOp τ sig (Elt F)) :=
  [ StableHlo.unary main_arg12 main_v111 (extractStridedSlice S4 ![0] · slices_S12_S4_0),
    StableHlo.unary main_arg12 main_v112 (extractStridedSlice S4 ![4] · slices_S12_S4_4),
    StableHlo.unary main_arg12 main_v113 (extractStridedSlice S4 ![8] · slices_S12_S4_8),
    StableHlo.unary main_v111 main_v114 (extractStridedSlice S1 ![1] · slices_S4_S1_1),
    StableHlo.reshape main_v114 main_v115 rfl shapeCasts_S1_S_,
    StableHlo.unary main_v115 main_v116 (broadcastInDim S8192x416 ![] bcast_S_S8192x416),
    StableHlo.binary main_v116 main_v17 main_v117 mulf,
    StableHlo.nullary main_cst_7 (constant S_ .f32 0x00000000#32),
    StableHlo.binary main_v111 main_cst_7 main_v118 (fun x v => Host.reduceAdd x v reducesTo_S4_S_d0 h_S_),
    StableHlo.unary main_v111 main_v119 (extractStridedSlice S1 ![1] · slices_S4_S1_1),
    StableHlo.reshape main_v119 main_v120 rfl shapeCasts_S1_S_,
    StableHlo.binary main_v118 main_v120 main_v121 subf,
    StableHlo.unary main_v121 main_v122 (broadcastInDim S8192x416 ![] bcast_S_S8192x416),
    StableHlo.binary main_v117 main_v122 main_v123 addf,
    StableHlo.unary main_v112 main_v124 (extractStridedSlice S1 ![3] · slices_S4_S1_3),
    StableHlo.reshape main_v124 main_v125 rfl shapeCasts_S1_S_,
    StableHlo.unary main_v125 main_v126 (broadcastInDim S8192x400 ![] bcast_S_S8192x400),
    StableHlo.binary main_v126 main_v110 main_v127 mulf,
    StableHlo.nullary main_cst_8 (constant S_ .f32 0x00000000#32),
    StableHlo.binary main_v112 main_cst_8 main_v128 (fun x v => Host.reduceAdd x v reducesTo_S4_S_d0 h_S_),
    StableHlo.unary main_v112 main_v129 (extractStridedSlice S1 ![3] · slices_S4_S1_3),
    StableHlo.reshape main_v129 main_v130 rfl shapeCasts_S1_S_,
    StableHlo.binary main_v128 main_v130 main_v131 subf,
    StableHlo.unary main_v131 main_v132 (broadcastInDim S8192x400 ![] bcast_S_S8192x400),
    StableHlo.binary main_v127 main_v132 main_v133 addf,
    StableHlo.binary main_v123 main_arg4 main_v134 (fun l r => Host.dotGeneral dot_S8192x416_S416x400_S8192x400_1_0_0_1_n_n none l r),
    StableHlo.binary main_v133 main_arg5 main_v135 (fun l r => Host.dotGeneral dot_S8192x400_S400x400_S8192x400_1_0_0_1_n_n none l r),
    StableHlo.binary main_v134 main_v135 main_v136 addf,
    StableHlo.TRef.nullary main_call4.cst (constant S_ .f32 0x00000000#32),
    StableHlo.TRef.unary main_call4.cst main_call4.v0 (broadcastInDim S8192x400 ![] bcast_S_S8192x400),
    StableHlo.TRef.binary (.of main_v136) main_call4.v0 main_call4.v1 maximumf,
    StableHlo.unary main_arg6 main_v138 (extractStridedSlice S1x1x400x400 ![2, 2, 0, 0] · slices_S4x4x400x400_S1x1x400x400_2_2_0_0),
    StableHlo.reshape main_v138 main_v139 rfl shapeCasts_S1x1x400x400_S400x400,
    StableHlo.binary main_v137 main_v139 main_v140 (fun l r => Host.dotGeneral dot_S8192x400_S400x400_S8192x400_1_0_0_1_n_n none l r),
    StableHlo.unary main_arg7 main_v141 (extractStridedSlice S1x1x400 ![2, 2, 0] · slices_S4x4x400_S1x1x400_2_2_0),
    StableHlo.reshape main_v141 main_v142 rfl shapeCasts_S1x1x400_S400,
    StableHlo.unary main_v142 main_v143 (broadcastInDim S1x400 ![1] bcast_S400_S1x400_1),
    StableHlo.unary main_v143 main_v144 (broadcastInDim S8192x400 ![0, 1] bcast_S1x400_S8192x400_0_1),
    StableHlo.binary main_v140 main_v144 main_v145 addf,
    StableHlo.unary main_v113 main_v146 (extractStridedSlice S1 ![2] · slices_S4_S1_2),
    StableHlo.reshape main_v146 main_v147 rfl shapeCasts_S1_S_,
    StableHlo.unary main_v147 main_v148 (broadcastInDim S8192x400 ![] bcast_S_S8192x400),
    StableHlo.binary main_v148 main_v145 main_v149 mulf,
    StableHlo.nullary main_cst_9 (constant S_ .f32 0x00000000#32),
    StableHlo.binary main_v113 main_cst_9 main_v150 (fun x v => Host.reduceAdd x v reducesTo_S4_S_d0 h_S_),
    StableHlo.unary main_v113 main_v151 (extractStridedSlice S1 ![2] · slices_S4_S1_2),
    StableHlo.reshape main_v151 main_v152 rfl shapeCasts_S1_S_,
    StableHlo.binary main_v150 main_v152 main_v153 subf,
    StableHlo.unary main_v153 main_v154 (broadcastInDim S8192x400 ![] bcast_S_S8192x400),
    StableHlo.binary main_v149 main_v154 main_v155 addf ]

abbrev opsB3 : List (HloOp τ sig (Elt F)) :=
  [ StableHlo.unary main_arg13 main_v156 (extractStridedSlice S5 ![0] · slices_S14_S5_0),
    StableHlo.unary main_arg13 main_v157 (extractStridedSlice S5 ![5] · slices_S14_S5_5),
    StableHlo.unary main_arg13 main_v158 (extractStridedSlice S4 ![10] · slices_S14_S4_10),
    StableHlo.unary main_v156 main_v159 (extractStridedSlice S1 ![1] · slices_S5_S1_1),
    StableHlo.reshape main_v159 main_v160 rfl shapeCasts_S1_S_,
    StableHlo.unary main_v160 main_v161 (broadcastInDim S8192x416 ![] bcast_S_S8192x416),
    StableHlo.binary main_v161 main_v17 main_v162 mulf,
    StableHlo.nullary main_cst_10 (constant S_ .f32 0x00000000#32),
    StableHlo.binary main_v156 main_cst_10 main_v163 (fun x v => Host.reduceAdd x v reducesTo_S5_S_d0 h_S_),
    StableHlo.unary main_v156 main_v164 (extractStridedSlice S1 ![1] · slices_S5_S1_1),
    StableHlo.reshape main_v164 main_v165 rfl shapeCasts_S1_S_,
    StableHlo.binary main_v163 main_v165 main_v166 subf,
    StableHlo.unary main_v166 main_v167 (broadcastInDim S8192x416 ![] bcast_S_S8192x416),
    StableHlo.binary main_v162 main_v167 main_v168 addf,
    StableHlo.unary main_v157 main_v169 (extractStridedSlice S1 ![4] · slices_S5_S1_4),
    StableHlo.reshape main_v169 main_v170 rfl shapeCasts_S1_S_,
    StableHlo.unary main_v170 main_v171 (broadcastInDim S8192x400 ![] bcast_S_S8192x400),
    StableHlo.binary main_v171 main_v155 main_v172 mulf,
    StableHlo.nullary main_cst_11 (constant S_ .f32 0x00000000#32),
    StableHlo.binary main_v157 main_cst_11 main_v173 (fun x v => Host.reduceAdd x v reducesTo_S5_S_d0 h_S_),
    StableHlo.unary main_v157 main_v174 (extractStridedSlice S1 ![4] · slices_S5_S1_4),
    StableHlo.reshape main_v174 main_v175 rfl shapeCasts_S1_S_,
    StableHlo.binary main_v173 main_v175 main_v176 subf,
    StableHlo.unary main_v176 main_v177 (broadcastInDim S8192x400 ![] bcast_S_S8192x400),
    StableHlo.binary main_v172 main_v177 main_v178 addf,
    StableHlo.binary main_v168 main_arg4 main_v179 (fun l r => Host.dotGeneral dot_S8192x416_S416x400_S8192x400_1_0_0_1_n_n none l r),
    StableHlo.binary main_v178 main_arg5 main_v180 (fun l r => Host.dotGeneral dot_S8192x400_S400x400_S8192x400_1_0_0_1_n_n none l r),
    StableHlo.binary main_v179 main_v180 main_v181 addf,
    StableHlo.TRef.nullary main_call5.cst (constant S_ .f32 0x00000000#32),
    StableHlo.TRef.unary main_call5.cst main_call5.v0 (broadcastInDim S8192x400 ![] bcast_S_S8192x400),
    StableHlo.TRef.binary (.of main_v181) main_call5.v0 main_call5.v1 maximumf,
    StableHlo.unary main_arg6 main_v183 (extractStridedSlice S1x1x400x400 ![3, 3, 0, 0] · slices_S4x4x400x400_S1x1x400x400_3_3_0_0),
    StableHlo.reshape main_v183 main_v184 rfl shapeCasts_S1x1x400x400_S400x400,
    StableHlo.binary main_v182 main_v184 main_v185 (fun l r => Host.dotGeneral dot_S8192x400_S400x400_S8192x400_1_0_0_1_n_n none l r),
    StableHlo.unary main_arg7 main_v186 (extractStridedSlice S1x1x400 ![3, 3, 0] · slices_S4x4x400_S1x1x400_3_3_0),
    StableHlo.reshape main_v186 main_v187 rfl shapeCasts_S1x1x400_S400,
    StableHlo.unary main_v187 main_v188 (broadcastInDim S1x400 ![1] bcast_S400_S1x400_1),
    StableHlo.unary main_v188 main_v189 (broadcastInDim S8192x400 ![0, 1] bcast_S1x400_S8192x400_0_1),
    StableHlo.binary main_v185 main_v189 main_v190 addf,
    StableHlo.unary main_v158 main_v191 (extractStridedSlice S1 ![3] · slices_S4_S1_3),
    StableHlo.reshape main_v191 main_v192 rfl shapeCasts_S1_S_,
    StableHlo.unary main_v192 main_v193 (broadcastInDim S8192x400 ![] bcast_S_S8192x400),
    StableHlo.binary main_v193 main_v190 main_v194 mulf,
    StableHlo.nullary main_cst_12 (constant S_ .f32 0x00000000#32),
    StableHlo.binary main_v158 main_cst_12 main_v195 (fun x v => Host.reduceAdd x v reducesTo_S4_S_d0 h_S_),
    StableHlo.unary main_v158 main_v196 (extractStridedSlice S1 ![3] · slices_S4_S1_3),
    StableHlo.reshape main_v196 main_v197 rfl shapeCasts_S1_S_,
    StableHlo.binary main_v195 main_v197 main_v198 subf,
    StableHlo.unary main_v198 main_v199 (broadcastInDim S8192x400 ![] bcast_S_S8192x400),
    StableHlo.binary main_v194 main_v199 main_v200 addf ]

abbrev opsTail : List (HloOp τ sig (Elt F)) :=
  [ StableHlo.nary ![main_v65, main_v110, main_v155, main_v200] main_v201 (fun u => concatenate S8192x1600 1 [⟨S8192x400, u 0⟩, ⟨S8192x400, u 1⟩, ⟨S8192x400, u 2⟩, ⟨S8192x400, u 3⟩] concatenates_S8192x400_S8192x400_S8192x400_S8192x400_S8192x1600_d1),
    StableHlo.binary main_v201 main_arg8 main_v202 (fun l r => Host.dotGeneral dot_S8192x1600_S1600x1_S8192x1_1_0_0_1_n_n none l r),
    StableHlo.unary main_arg9 main_v203 (broadcastInDim S1x1 ![1] bcast_S1_S1x1_1),
    StableHlo.unary main_v203 main_v204 (broadcastInDim S8192x1 ![0, 1] bcast_S1x1_S8192x1_0_1),
    StableHlo.binary main_v202 main_v204 main_v205 addf,
    StableHlo.nullary main_cst_13 (constant S_ .f32 0x3727C5AC#32),
    StableHlo.binary main_cst_13 main_v20 main_v206 mulf ]

abbrev ops : List (HloOp τ sig (Elt F)) := opsPre ++ opsB0 ++ opsB1 ++ opsB2 ++ opsB3 ++ opsTail

abbrev opsPre_W : List (Ref sig .tc) :=
  [main_c, main_v0, main_v1, main_v2, main_v3, main_v4, main_v5, main_v6, main_v7, main_v8, main_c_0, main_v9,
    main_v10, main_c_1, main_v11, main_v12, main_v13, main_v14, main_v15, main_v16, main_v17, main_call0_v0, main_call0_cst, main_call0_v1,
    main_v18, main_call1_v0, main_call1_cst, main_call1_v1, main_v19, main_v20]

abbrev opsB0_W : List (Ref sig .tc) :=
  [main_v21, main_v22, main_v23, main_v24, main_v25, main_v26, main_v27, main_cst, main_v28, main_v29, main_v30, main_v31,
    main_v32, main_v33, main_v34, main_v35, main_v36, main_v37, main_cst_2, main_v38, main_v39, main_v40, main_v41, main_v42,
    main_v43, main_v44, main_v45, main_v46, main_call2_cst, main_call2_v0, main_v47, main_v48, main_v49, main_v50, main_v51, main_v52,
    main_v53, main_v54, main_v55, main_v56, main_v57, main_v58, main_v59, main_cst_3, main_v60, main_v61, main_v62, main_v63,
    main_v64, main_v65]

abbrev opsB1_W : List (Ref sig .tc) :=
  [main_v66, main_v67, main_v68, main_v69, main_v70, main_v71, main_v72, main_cst_4, main_v73, main_v74, main_v75, main_v76,
    main_v77, main_v78, main_v79, main_v80, main_v81, main_v82, main_cst_5, main_v83, main_v84, main_v85, main_v86, main_v87,
    main_v88, main_v89, main_v90, main_v91, main_call3_cst, main_call3_v0, main_v92, main_v93, main_v94, main_v95, main_v96, main_v97,
    main_v98, main_v99, main_v100, main_v101, main_v102, main_v103, main_v104, main_cst_6, main_v105, main_v106, main_v107, main_v108,
    main_v109, main_v110]

abbrev opsB2_W : List (Ref sig .tc) :=
  [main_v111, main_v112, main_v113, main_v114, main_v115, main_v116, main_v117, main_cst_7, main_v118, main_v119, main_v120, main_v121,
    main_v122, main_v123, main_v124, main_v125, main_v126, main_v127, main_cst_8, main_v128, main_v129, main_v130, main_v131, main_v132,
    main_v133, main_v134, main_v135, main_v136, main_call4_cst, main_call4_v0, main_v137, main_v138, main_v139, main_v140, main_v141, main_v142,
    main_v143, main_v144, main_v145, main_v146, main_v147, main_v148, main_v149, main_cst_9, main_v150, main_v151, main_v152, main_v153,
    main_v154, main_v155]

abbrev opsB3_W : List (Ref sig .tc) :=
  [main_v156, main_v157, main_v158, main_v159, main_v160, main_v161, main_v162, main_cst_10, main_v163, main_v164, main_v165, main_v166,
    main_v167, main_v168, main_v169, main_v170, main_v171, main_v172, main_cst_11, main_v173, main_v174, main_v175, main_v176, main_v177,
    main_v178, main_v179, main_v180, main_v181, main_call5_cst, main_call5_v0, main_v182, main_v183, main_v184, main_v185, main_v186, main_v187,
    main_v188, main_v189, main_v190, main_v191, main_v192, main_v193, main_v194, main_cst_12, main_v195, main_v196, main_v197, main_v198,
    main_v199, main_v200]

abbrev opsTail_W : List (Ref sig .tc) :=
  [main_v201, main_v202, main_v203, main_v204, main_v205, main_cst_13, main_v206]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

-- What `run_seq` asks of each operation, together with the one reference it writes, which lies past the fourteen arguments.
def WritesOne (op : HloOp τ sig (Elt F)) (y : Ref sig .tc) : Prop :=
  op.bufs ⊆ tcRefs τ sig ∧ op.fresh = ∅ ∧ 14 ≤ y.idx.val ∧ op.writes = {Proc.devRef .tc y}

-- Each builder's operation is of that kind by computation; the four blocks are the same builders in the same order.
theorem pieces_writesOne : List.Forall₂ WritesOne (opsPre (F := F)) opsPre_W ∧ List.Forall₂ WritesOne (opsB0 (F := F)) opsB0_W
    ∧ List.Forall₂ WritesOne (opsB1 (F := F)) opsB1_W ∧ List.Forall₂ WritesOne (opsB2 (F := F)) opsB2_W
    ∧ List.Forall₂ WritesOne (opsB3 (F := F)) opsB3_W ∧ List.Forall₂ WritesOne (opsTail (F := F)) opsTail_W := by
  refine ⟨?_, ?_, ?_, ?_, ?_, ?_⟩ <;>
    repeat' first
      | exact .nil
      | refine .cons ⟨by simp only [nullary_bufs_sub, unary_bufs_sub, binary_bufs_sub, ternary_bufs_sub, reshape_bufs_sub, nary_bufs_sub],
          rfl, by decide, rfl⟩ ?_

-- Distinct references are distinct buffers: a line whose operations write the references of `W` keeps every other reference, and every argument.
theorem after_keeps : ∀ {l : List (HloOp τ sig (Elt F))} {W : List (Ref sig .tc)}, List.Forall₂ WritesOne l W → ∀ (V : Valuation τ sig (Elt F))
    (r : Ref sig .tc), r ∉ W ∨ r.idx.val < 14 → after l V (Proc.devRef .tc r) = V (Proc.devRef .tc r)
  | _, _, .nil, _, _, _ => rfl
  | _, _, .cons (b := y) h t, V, r, hr => by
    rw [after_cons, after_keeps t _ r (hr.imp_left fun h' hm => h' (List.mem_cons_of_mem _ hm)), HloOp.result_of_not_mem]
    rw [h.2.2.2, Finset.mem_singleton]
    intro e
    cases Proc.devRef_injective _ e
    exact hr.elim (· List.mem_cons_self) fun h' => absurd h.2.2.1 (by omega)

theorem forall_ops {p : HloOp τ sig (Elt F) → Prop} (hp : ∀ {op y}, WritesOne op y → p op) :
    ∀ {l : List (HloOp τ sig (Elt F))} {W : List (Ref sig .tc)}, List.Forall₂ WritesOne l W → ∀ op ∈ l, p op
  | _, _, .nil, _, h => nomatch h
  | _, _, .cons r t, op, h => (List.mem_cons.1 h).elim (· ▸ hp r) (forall_ops hp t op)

theorem ops_writesOne : List.Forall₂ WritesOne (ops (F := F)) (opsPre_W ++ opsB0_W ++ opsB1_W ++ opsB2_W ++ opsB3_W ++ opsTail_W) :=
  have h := pieces_writesOne (F := F)
  List.rel_append (List.rel_append (List.rel_append (List.rel_append (List.rel_append h.1 h.2.1) h.2.2.1) h.2.2.2.1) h.2.2.2.2.1) h.2.2.2.2.2

theorem after_arg (V : Valuation τ sig (Elt F)) (r : Ref sig .tc) (hr : r.idx.val < 14) :
    after ops V (Proc.devRef .tc r) = V (Proc.devRef .tc r) :=
  after_keeps ops_writesOne V r (.inr hr)

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq
    (fun _ => List.forall_iff_forall_mem.2 (forall_ops (·.1) ops_writesOne)) m ρ fun _ => forall_ops (·.2.1) ops_writesOne

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
    refine ⟨?_, ?_, ?_, ?_, ?_, ?_, ?_, ?_, ?_, ?_, ?_, ?_, ?_, ?_⟩ <;> exact (h c _).trans (after_arg _ _ (by decide))) (run_all m ρ)

end Cert.ReferenceIdeal.RefRun

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

-- Row `r` of one block is `relu(x1[r,:]·p1 + x2[r,:]·p2)·w + b`: rows never mix.
def blockFn {M K1 K2 : ℕ} (x1 : (⟨2, ![M, K1]⟩ : Shape).Idx → EReal) (x2 : (⟨2, ![M, K2]⟩ : Shape).Idx → EReal)
    (p1 : (⟨2, ![K1, 400]⟩ : Shape).Idx → EReal) (p2 : (⟨2, ![K2, 400]⟩ : Shape).Idx → EReal)
    (w : (⟨2, ![400, 400]⟩ : Shape).Idx → EReal) (b : (⟨2, ![1, 400]⟩ : Shape).Idx → EReal) :
    (⟨2, ![M, 400]⟩ : Shape).Idx → EReal :=
  fun i => (∑ k : Fin 400, max ((∑ a : Fin K1, x1 (ix2 (i 0) a) * p1 (ix2 a k)) + ∑ a : Fin K2, x2 (ix2 (i 0) a) * p2 (ix2 a k)) 0
      * w (ix2 k (i 1))) + b (ix2 0 (i 1))

def clfFn {M : ℕ} (x : (⟨2, ![M, 1600]⟩ : Shape).Idx → EReal) (w : (⟨2, ![1600, 1]⟩ : Shape).Idx → EReal)
    (b : (⟨2, ![1, 1]⟩ : Shape).Idx → EReal) : (⟨2, ![M, 1]⟩ : Shape).Idx → EReal :=
  fun i => (∑ k : Fin 1600, x (ix2 (i 0) k) * w (ix2 k (i 1))) + b (ix2 0 (i 1))

end Cert.Spec

end
-- ==== Proof.LibPlainDot.lean ====
import Idealize.ShloMosaic.PureOps.Ideal.Laws
import Idealize.ShloMosaic.Lib.ValueIdx

noncomputable section

open scoped BigOperators

namespace Cert.PlainDot

open Idealize.ShloMosaic Idealize.ShloMosaic.ValueIdx

variable {M K N : ℕ}

-- For the plain dimension numbers the contracted index runs over `Fin K`, the operands read at `(r, k)` and `(k, c)`.
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KI.BlockValue0.lean ====
import proofs.«429333_j2637109920279_1_alg».proof.Proof.KI.Region0
import proofs.«429333_j2637109920279_1_alg».proof.Proof.Spec
import proofs.«429333_j2637109920279_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem bias_apply (x5 : Vec Ideal S1x400 .f32) (p : Fin 1024) (q : Fin 400) :
    (broadcastTo S1024x400 x5 broadcasts_S1x400_S1024x400 : S1024x400.Idx → EReal) (ix2 p q) = x5 (ix2 0 q) :=
  broadcastTo_apply x5 _ _ _ fun a => match a with
    | ⟨0, _⟩ => rfl
    | ⟨1, _⟩ => rfl

/-- The body's value of six blocks is the block function of the blocks. -/
theorem pay_apply (x0 : Vec Ideal S1024x208 .f32) (x1 : Vec Ideal S1024x416 .f32) (x2 : Vec Ideal S208x400 .bf16)
    (x3 : Vec Ideal S416x400 .bf16) (x4 : Vec Ideal S400x400 .bf16) (x5 : Vec Ideal S1x400 .f32) :
    (k0_pay1 (F := Ideal) x0 x1 x2 x3 x4 x5 : S1024x400.Idx → EReal) = Cert.Spec.blockFn (M := 1024) x0 x1 x2 x3 x4 x5 := by
  funext j
  obtain ⟨p, q, rfl⟩ : ∃ p q, j = ix2 p q := ⟨_, _, eq_ix2 j⟩
  unfold k0_pay1
  simp only [shapeCast_self]
  refine (addf_apply _ _ _).trans (congrArg₂ (· + ·) ?_ (bias_apply x5 p q))
  refine (Cert.PlainDot.matmul_zero_apply (φ₁ := .bf16) (φ₂ := .bf16) _ rfl none _ x4 (ix2 p q)).trans
    (Finset.sum_congr rfl fun k _ => congrArg₂ (· * ·) ?_ rfl)
  refine (truncf_apply (φ := .f32) (ψ := .bf16) _ bitsLt_bf16_f32 _).trans ((maximumf_apply _ _ _).trans
    (congrArg₂ max ((addf_apply _ _ _).trans (congrArg₂ (· + ·) ?_ ?_)) Ideal.ofBits_zero_f32))
  · exact Cert.PlainDot.matmul_zero_apply (φ₁ := .bf16) (φ₂ := .bf16) _ rfl none _ x2 _
  · exact Cert.PlainDot.matmul_zero_apply (φ₁ := .bf16) (φ₂ := .bf16) _ rfl none _ x3 _

theorem off_zero : (![0, 0] : Fin 2 → Nat) = fun _ => 0 := funext fun a => by fin_cases a <;> rfl

/-- A load through the rectangle at offset zero of a block's own size is the block. -/
theorem ld_zero {sz : Fin 2 → ℕ} {e : EltTy} (inb : ∀ a, ![0, 0] a + sz a ≤ sz a) (X : (⟨2, sz⟩ : Shape).Idx → Elt Ideal e) :
    View.ld X (Rect.unit ![0, 0] sz inb) = X :=
  View.ld_unit_zero off_zero inb X

/-- An element of a window's block sits in the array at block index times block size plus its place in the block. -/
theorem emb_eq {G : Pipeline.Grid} (w : Window sig G) (t : Fin G.N) (x : (w.xblock (G.coords t)).Idx) (k : w.shape.Idx)
    (h : ∀ a, w.index t a * w.size a + x a = k a) : (w.rect t).emb x = k :=
  funext fun a => Fin.ext ((w.rect_emb_val t x a).trans (h a))

/-- At block index zero on every axis an element keeps its place. -/
theorem emb_self {G : Pipeline.Grid} (w : Window sig G) (t : Fin G.N) (h : ∀ a, w.index t a = 0)
    (x : (w.xblock (G.coords t)).Idx) (k : w.shape.Idx) (hk : ∀ a, (x a : Nat) = k a) : (w.rect t).emb x = k :=
  funext fun a => Fin.ext ((w.rect_emb_val_of_index_zero t a (h a) x).trans (hk a))

/-- Rows never mix: blocks holding row `i 0` of the activations at row `j 0`, the rest whole, give the arrays' value at `i`. -/
theorem blockFn_rows {M M' K1 K2 : ℕ} (A0 : (⟨2, ![M, K1]⟩ : Shape).Idx → EReal) (A1 : (⟨2, ![M, K2]⟩ : Shape).Idx → EReal)
    (A2 : (⟨2, ![K1, 400]⟩ : Shape).Idx → EReal) (A3 : (⟨2, ![K2, 400]⟩ : Shape).Idx → EReal) (A4 : (⟨2, ![400, 400]⟩ : Shape).Idx → EReal) (A5 : (⟨2, ![1, 400]⟩ : Shape).Idx → EReal)
    (b0 : (⟨2, ![M', K1]⟩ : Shape).Idx → EReal) (b1 : (⟨2, ![M', K2]⟩ : Shape).Idx → EReal)
    (b2 : (⟨2, ![K1, 400]⟩ : Shape).Idx → EReal) (b3 : (⟨2, ![K2, 400]⟩ : Shape).Idx → EReal) (b4 : (⟨2, ![400, 400]⟩ : Shape).Idx → EReal) (b5 : (⟨2, ![1, 400]⟩ : Shape).Idx → EReal)
    (j : (⟨2, ![M', 400]⟩ : Shape).Idx) (i : (⟨2, ![M, 400]⟩ : Shape).Idx)
    (h0 : ∀ a, b0 (ix2 (j 0) a) = A0 (ix2 (i 0) a)) (h1 : ∀ a, b1 (ix2 (j 0) a) = A1 (ix2 (i 0) a))
    (h2 : ∀ x, b2 x = A2 x) (h3 : ∀ x, b3 x = A3 x) (h4 : ∀ x, b4 x = A4 x) (h5 : ∀ x, b5 x = A5 x) (hq : j 1 = i 1) :
    Cert.Spec.blockFn b0 b1 b2 b3 b4 b5 j = Cert.Spec.blockFn A0 A1 A2 A3 A4 A5 i := by
  simp only [Cert.Spec.blockFn, h0, h1, h2, h3, h4, h5, hq]

theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ (∀ a, win0_2.index t a = 0) ∧ (∀ a, win0_3.index t a = 0) ∧ (∀ a, win0_4.index t a = 0) ∧ (∀ a, win0_5.index t a = 0)
    ∧ win0_6.index t (0 : Fin 2) = t.val ∧ win0_6.index t (1 : Fin 2) = 0 :=
  (by decide +kernel : ∀ t : Fin grid0.N, _)

theorem block_value (c : Dev nD) (t : Fin cfg0.N) (y : S1024x400.Idx) :
    (k0_pay1 (F := Ideal) (iblk0 V c 0 t) (iblk0 V c 1 t) (iblk0 V c 2 t) (iblk0 V c 3 t) (iblk0 V c 4 t) (iblk0 V c 5 t) : S1024x400.Idx → EReal) y
      = Cert.Spec.blockFn (M := 8192) (K1 := 208) (K2 := 416) (V c main_v49) (V c main_v53) (V c main_v22) (V c main_v23) (V c main_v56) (V c main_v59) (((cfg0.win 6).blk t).view.emb y) := by
  obtain ⟨e0, e1, f0, f1, r2, r3, r4, r5, g0, g1⟩ := block_index t
  have h0 : ((((cfg0.win 6).blk t).view.emb y) 0).val = t.val * 1024 + (y 0).val := g0 ▸ win0_6.rect_emb_val t y 0
  have h1 : ((((cfg0.win 6).blk t).view.emb y) 1).val = (y 1).val := win0_6.rect_emb_val_of_index_zero t 1 g1 y
  generalize ((cfg0.win 6).blk t).view.emb y = i at h0 h1
  rw [pay_apply]
  exact blockFn_rows _ _ _ _ _ _ _ _ _ _ _ _ y i
    (fun a => congrArg (V c main_v49) (emb_eq win0_0 t _ _
      (Fin.forall_fin_two.2 ⟨e0 ▸ h0.symm, by rw [e1]; exact Nat.zero_add _⟩)))
    (fun a => congrArg (V c main_v53) (emb_eq win0_1 t _ _
      (Fin.forall_fin_two.2 ⟨f0 ▸ h0.symm, by rw [f1]; exact Nat.zero_add _⟩)))
    (fun x => congrArg (V c main_v22) (emb_self win0_2 t r2 x x fun _ => rfl))
    (fun x => congrArg (V c main_v23) (emb_self win0_3 t r3 x x fun _ => rfl))
    (fun x => congrArg (V c main_v56) (emb_self win0_4 t r4 x x fun _ => rfl))
    (fun x => congrArg (V c main_v59) (emb_self win0_5 t r5 x x fun _ => rfl))
    (Fin.ext h1.symm)

theorem arrAt0 (c : Dev nD) :
    ((dat0 V c).arrAt 6 cfg0.N : S8192x400.Idx → EReal)
      = Cert.Spec.blockFn (M := 8192) (K1 := 208) (K2 := 416) (V c main_v49) (V c main_v53) (V c main_v22) (V c main_v23) (V c main_v56) (V c main_v59) := by
  refine (dat0 V c).arrAt_eq_of_cover 6 _ (fun t _ => ?_) fun i => ?_
  · show (cfg0.win 6).cut (grid0.coords t) ((dat0 V c).after 6 t) = _
    rw [after0_6]
    unfold out0_6
    rw [View.canon_unit_zero off_zero]
    simp only [ld_zero]
    exact funext (block_value V c t)
  · have hi0 : (i 0).val < 8192 := (i 0).isLt
    have hi1 : (i 1).val < 400 := (i 1).isLt
    obtain ⟨t, ht⟩ : ∃ t : Fin cfg0.N, t.val = (i 0).val / 1024 := ⟨⟨(i 0).val / 1024, by show _ < grid0.N; rw [N_0]; omega⟩, rfl⟩
    obtain ⟨-, -, -, -, -, -, -, -, g0, g1⟩ := block_index t
    refine ⟨t, flush0_6 t, ?_⟩
    show i ∈ ((View.whole main_v60).slice (win0_6.rect t)).set
    rw [View.set_slice_whole, Rect.mem_set_unit]
    refine Fin.forall_fin_two.2 ⟨?_, ?_⟩
    · show win0_6.index t 0 * 1024 ≤ (i 0).val ∧ (i 0).val < win0_6.index t 0 * 1024 + 1024; omega
    · show win0_6.index t 1 * 400 ≤ (i 1).val ∧ (i 1).val < win0_6.index t 1 * 400 + 400; omega

end Cert.KernelIdeal.Val

end
-- ==== Proof.KI.BlockValue1.lean ====
import proofs.«429333_j2637109920279_1_alg».proof.Proof.KI.Region1
import proofs.«429333_j2637109920279_1_alg».proof.Proof.KI.BlockValue0

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's value of six blocks is the block function of the blocks. -/
theorem pay_apply_b1 (x0 : Vec Ideal S1024x416 .f32) (x1 : Vec Ideal S1024x400 .f32) (x2 : Vec Ideal S416x400 .bf16)
    (x3 : Vec Ideal S400x400 .bf16) (x4 : Vec Ideal S400x400 .bf16) (x5 : Vec Ideal S1x400 .f32) :
    (k1_pay1 (F := Ideal) x0 x1 x2 x3 x4 x5 : S1024x400.Idx → EReal) = Cert.Spec.blockFn (M := 1024) x0 x1 x2 x3 x4 x5 := by
  funext j
  obtain ⟨p, q, rfl⟩ : ∃ p q, j = ix2 p q := ⟨_, _, eq_ix2 j⟩
  unfold k1_pay1
  simp only [shapeCast_self]
  refine (addf_apply _ _ _).trans (congrArg₂ (· + ·) ?_ (bias_apply x5 p q))
  refine (Cert.PlainDot.matmul_zero_apply (φ₁ := .bf16) (φ₂ := .bf16) _ rfl none _ x4 (ix2 p q)).trans
    (Finset.sum_congr rfl fun k _ => congrArg₂ (· * ·) ?_ rfl)
  refine (truncf_apply (φ := .f32) (ψ := .bf16) _ bitsLt_bf16_f32 _).trans ((maximumf_apply _ _ _).trans
    (congrArg₂ max ((addf_apply _ _ _).trans (congrArg₂ (· + ·) ?_ ?_)) Ideal.ofBits_zero_f32))
  · exact Cert.PlainDot.matmul_zero_apply (φ₁ := .bf16) (φ₂ := .bf16) _ rfl none _ x2 _
  · exact Cert.PlainDot.matmul_zero_apply (φ₁ := .bf16) (φ₂ := .bf16) _ rfl none _ x3 _

theorem block_index_b1 : ∀ t : Fin cfg1.N,
    win1_0.index t (0 : Fin 2) = t.val ∧ win1_0.index t (1 : Fin 2) = 0
    ∧ win1_1.index t (0 : Fin 2) = t.val ∧ win1_1.index t (1 : Fin 2) = 0
    ∧ (∀ a, win1_2.index t a = 0) ∧ (∀ a, win1_3.index t a = 0) ∧ (∀ a, win1_4.index t a = 0) ∧ (∀ a, win1_5.index t a = 0)
    ∧ win1_6.index t (0 : Fin 2) = t.val ∧ win1_6.index t (1 : Fin 2) = 0 :=
  (by decide +kernel : ∀ t : Fin grid1.N, _)

theorem block_value_b1 (c : Dev nD) (t : Fin cfg1.N) (y : S1024x400.Idx) :
    (k1_pay1 (F := Ideal) (iblk1 V c 0 t) (iblk1 V c 1 t) (iblk1 V c 2 t) (iblk1 V c 3 t) (iblk1 V c 4 t) (iblk1 V c 5 t) : S1024x400.Idx → EReal) y
      = Cert.Spec.blockFn (M := 8192) (K1 := 416) (K2 := 400) (V c main_v89) (V c main_v93) (V c main_v23) (V c main_v24) (V c main_v96) (V c main_v99) (((cfg1.win 6).blk t).view.emb y) := by
  obtain ⟨e0, e1, f0, f1, r2, r3, r4, r5, g0, g1⟩ := block_index_b1 t
  have h0 : ((((cfg1.win 6).blk t).view.emb y) 0).val = t.val * 1024 + (y 0).val := g0 ▸ win1_6.rect_emb_val t y 0
  have h1 : ((((cfg1.win 6).blk t).view.emb y) 1).val = (y 1).val := win1_6.rect_emb_val_of_index_zero t 1 g1 y
  generalize ((cfg1.win 6).blk t).view.emb y = i at h0 h1
  exact (congrFun (pay_apply_b1 _ _ _ _ _ _) y).trans (blockFn_rows _ _ _ _ _ _ _ _ _ _ _ _ y i
    (fun a => congrArg (V c main_v89) (emb_eq win1_0 t _ _
      (Fin.forall_fin_two.2 ⟨e0 ▸ h0.symm, by rw [e1]; exact Nat.zero_add _⟩)))
    (fun a => congrArg (V c main_v93) (emb_eq win1_1 t _ _
      (Fin.forall_fin_two.2 ⟨f0 ▸ h0.symm, by rw [f1]; exact Nat.zero_add _⟩)))
    (fun x => congrArg (V c main_v23) (emb_self win1_2 t r2 x x fun _ => rfl))
    (fun x => congrArg (V c main_v24) (emb_self win1_3 t r3 x x fun _ => rfl))
    (fun x => congrArg (V c main_v96) (emb_self win1_4 t r4 x x fun _ => rfl))
    (fun x => congrArg (V c main_v99) (emb_self win1_5 t r5 x x fun _ => rfl))
    (Fin.ext h1.symm))

theorem arrAt1 (c : Dev nD) :
    ((dat1 V c).arrAt 6 cfg1.N : S8192x400.Idx → EReal)
      = Cert.Spec.blockFn (M := 8192) (K1 := 416) (K2 := 400) (V c main_v89) (V c main_v93) (V c main_v23) (V c main_v24) (V c main_v96) (V c main_v99) := by
  refine (dat1 V c).arrAt_eq_of_cover 6 _ (fun t _ => ?_) fun i => ?_
  · show (cfg1.win 6).cut (grid1.coords t) ((dat1 V c).after 6 t) = _
    rw [after1_6]
    unfold out1_6
    rw [View.canon_unit_zero off_zero]
    simp only [ld_zero]
    exact funext (block_value_b1 V c t)
  · have hi0 : (i 0).val < 8192 := (i 0).isLt
    have hi1 : (i 1).val < 400 := (i 1).isLt
    obtain ⟨t, ht⟩ : ∃ t : Fin cfg1.N, t.val = (i 0).val / 1024 := ⟨⟨(i 0).val / 1024, by show _ < grid1.N; rw [N_1]; omega⟩, rfl⟩
    obtain ⟨-, -, -, -, -, -, -, -, g0, g1⟩ := block_index_b1 t
    refine ⟨t, flush1_6 t, ?_⟩
    show i ∈ ((View.whole main_v100).slice (win1_6.rect t)).set
    rw [View.set_slice_whole, Rect.mem_set_unit]
    refine Fin.forall_fin_two.2 ⟨?_, ?_⟩
    · show win1_6.index t 0 * 1024 ≤ (i 0).val ∧ (i 0).val < win1_6.index t 0 * 1024 + 1024; omega
    · show win1_6.index t 1 * 400 ≤ (i 1).val ∧ (i 1).val < win1_6.index t 1 * 400 + 400; omega

end Cert.KernelIdeal.Val

end
-- ==== Proof.KI.BlockValue2.lean ====
import proofs.«429333_j2637109920279_1_alg».proof.Proof.KI.Region2
import proofs.«429333_j2637109920279_1_alg».proof.Proof.KI.BlockValue1

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem block_index_b2 : ∀ t : Fin cfg2.N,
    win2_0.index t (0 : Fin 2) = t.val ∧ win2_0.index t (1 : Fin 2) = 0
    ∧ win2_1.index t (0 : Fin 2) = t.val ∧ win2_1.index t (1 : Fin 2) = 0
    ∧ (∀ a, win2_2.index t a = 0) ∧ (∀ a, win2_3.index t a = 0) ∧ (∀ a, win2_4.index t a = 0) ∧ (∀ a, win2_5.index t a = 0)
    ∧ win2_6.index t (0 : Fin 2) = t.val ∧ win2_6.index t (1 : Fin 2) = 0 :=
  (by decide +kernel : ∀ t : Fin grid2.N, _)

theorem block_value_b2 (c : Dev nD) (t : Fin cfg2.N) (y : S1024x400.Idx) :
    (k2_pay1 (F := Ideal) (iblk2 V c 0 t) (iblk2 V c 1 t) (iblk2 V c 2 t) (iblk2 V c 3 t) (iblk2 V c 4 t) (iblk2 V c 5 t) : S1024x400.Idx → EReal) y
      = Cert.Spec.blockFn (M := 8192) (K1 := 416) (K2 := 400) (V c main_v129) (V c main_v133) (V c main_v23) (V c main_v24) (V c main_v136) (V c main_v139) (((cfg2.win 6).blk t).view.emb y) := by
  obtain ⟨e0, e1, f0, f1, r2, r3, r4, r5, g0, g1⟩ := block_index_b2 t
  have h0 : ((((cfg2.win 6).blk t).view.emb y) 0).val = t.val * 1024 + (y 0).val := g0 ▸ win2_6.rect_emb_val t y 0
  have h1 : ((((cfg2.win 6).blk t).view.emb y) 1).val = (y 1).val := win2_6.rect_emb_val_of_index_zero t 1 g1 y
  generalize ((cfg2.win 6).blk t).view.emb y = i at h0 h1
  exact (congrFun (pay_apply_b1 _ _ _ _ _ _) y).trans (blockFn_rows _ _ _ _ _ _ _ _ _ _ _ _ y i
    (fun a => congrArg (V c main_v129) (emb_eq win2_0 t _ _
      (Fin.forall_fin_two.2 ⟨e0 ▸ h0.symm, by rw [e1]; exact Nat.zero_add _⟩)))
    (fun a => congrArg (V c main_v133) (emb_eq win2_1 t _ _
      (Fin.forall_fin_two.2 ⟨f0 ▸ h0.symm, by rw [f1]; exact Nat.zero_add _⟩)))
    (fun x => congrArg (V c main_v23) (emb_self win2_2 t r2 x x fun _ => rfl))
    (fun x => congrArg (V c main_v24) (emb_self win2_3 t r3 x x fun _ => rfl))
    (fun x => congrArg (V c main_v136) (emb_self win2_4 t r4 x x fun _ => rfl))
    (fun x => congrArg (V c main_v139) (emb_self win2_5 t r5 x x fun _ => rfl))
    (Fin.ext h1.symm))

theorem arrAt2 (c : Dev nD) :
    ((dat2 V c).arrAt 6 cfg2.N : S8192x400.Idx → EReal)
      = Cert.Spec.blockFn (M := 8192) (K1 := 416) (K2 := 400) (V c main_v129) (V c main_v133) (V c main_v23) (V c main_v24) (V c main_v136) (V c main_v139) := by
  refine (dat2 V c).arrAt_eq_of_cover 6 _ (fun t _ => ?_) fun i => ?_
  · show (cfg2.win 6).cut (grid2.coords t) ((dat2 V c).after 6 t) = _
    rw [after2_6]
    unfold out2_6
    rw [View.canon_unit_zero off_zero]
    simp only [ld_zero]
    exact funext (block_value_b2 V c t)
  · have hi0 : (i 0).val < 8192 := (i 0).isLt
    have hi1 : (i 1).val < 400 := (i 1).isLt
    obtain ⟨t, ht⟩ : ∃ t : Fin cfg2.N, t.val = (i 0).val / 1024 := ⟨⟨(i 0).val / 1024, by show _ < grid2.N; rw [N_2]; omega⟩, rfl⟩
    obtain ⟨-, -, -, -, -, -, -, -, g0, g1⟩ := block_index_b2 t
    refine ⟨t, flush2_6 t, ?_⟩
    show i ∈ ((View.whole main_v140).slice (win2_6.rect t)).set
    rw [View.set_slice_whole, Rect.mem_set_unit]
    refine Fin.forall_fin_two.2 ⟨?_, ?_⟩
    · show win2_6.index t 0 * 1024 ≤ (i 0).val ∧ (i 0).val < win2_6.index t 0 * 1024 + 1024; omega
    · show win2_6.index t 1 * 400 ≤ (i 1).val ∧ (i 1).val < win2_6.index t 1 * 400 + 400; omega

end Cert.KernelIdeal.Val

end
-- ==== Proof.KI.BlockValue3.lean ====
import proofs.«429333_j2637109920279_1_alg».proof.Proof.KI.Region3
import proofs.«429333_j2637109920279_1_alg».proof.Proof.KI.BlockValue1

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem block_index_b3 : ∀ t : Fin cfg3.N,
    win3_0.index t (0 : Fin 2) = t.val ∧ win3_0.index t (1 : Fin 2) = 0
    ∧ win3_1.index t (0 : Fin 2) = t.val ∧ win3_1.index t (1 : Fin 2) = 0
    ∧ (∀ a, win3_2.index t a = 0) ∧ (∀ a, win3_3.index t a = 0) ∧ (∀ a, win3_4.index t a = 0) ∧ (∀ a, win3_5.index t a = 0)
    ∧ win3_6.index t (0 : Fin 2) = t.val ∧ win3_6.index t (1 : Fin 2) = 0 :=
  (by decide +kernel : ∀ t : Fin grid3.N, _)

theorem block_value_b3 (c : Dev nD) (t : Fin cfg3.N) (y : S1024x400.Idx) :
    (k3_pay1 (F := Ideal) (iblk3 V c 0 t) (iblk3 V c 1 t) (iblk3 V c 2 t) (iblk3 V c 3 t) (iblk3 V c 4 t) (iblk3 V c 5 t) : S1024x400.Idx → EReal) y
      = Cert.Spec.blockFn (M := 8192) (K1 := 416) (K2 := 400) (V c main_v169) (V c main_v173) (V c main_v23) (V c main_v24) (V c main_v176) (V c main_v179) (((cfg3.win 6).blk t).view.emb y) := by
  obtain ⟨e0, e1, f0, f1, r2, r3, r4, r5, g0, g1⟩ := block_index_b3 t
  have h0 : ((((cfg3.win 6).blk t).view.emb y) 0).val = t.val * 1024 + (y 0).val := g0 ▸ win3_6.rect_emb_val t y 0
  have h1 : ((((cfg3.win 6).blk t).view.emb y) 1).val = (y 1).val := win3_6.rect_emb_val_of_index_zero t 1 g1 y
  generalize ((cfg3.win 6).blk t).view.emb y = i at h0 h1
  exact (congrFun (pay_apply_b1 _ _ _ _ _ _) y).trans (blockFn_rows _ _ _ _ _ _ _ _ _ _ _ _ y i
    (fun a => congrArg (V c main_v169) (emb_eq win3_0 t _ _
      (Fin.forall_fin_two.2 ⟨e0 ▸ h0.symm, by rw [e1]; exact Nat.zero_add _⟩)))
    (fun a => congrArg (V c main_v173) (emb_eq win3_1 t _ _
      (Fin.forall_fin_two.2 ⟨f0 ▸ h0.symm, by rw [f1]; exact Nat.zero_add _⟩)))
    (fun x => congrArg (V c main_v23) (emb_self win3_2 t r2 x x fun _ => rfl))
    (fun x => congrArg (V c main_v24) (emb_self win3_3 t r3 x x fun _ => rfl))
    (fun x => congrArg (V c main_v176) (emb_self win3_4 t r4 x x fun _ => rfl))
    (fun x => congrArg (V c main_v179) (emb_self win3_5 t r5 x x fun _ => rfl))
    (Fin.ext h1.symm))

theorem arrAt3 (c : Dev nD) :
    ((dat3 V c).arrAt 6 cfg3.N : S8192x400.Idx → EReal)
      = Cert.Spec.blockFn (M := 8192) (K1 := 416) (K2 := 400) (V c main_v169) (V c main_v173) (V c main_v23) (V c main_v24) (V c main_v176) (V c main_v179) := by
  refine (dat3 V c).arrAt_eq_of_cover 6 _ (fun t _ => ?_) fun i => ?_
  · show (cfg3.win 6).cut (grid3.coords t) ((dat3 V c).after 6 t) = _
    rw [after3_6]
    unfold out3_6
    rw [View.canon_unit_zero off_zero]
    simp only [ld_zero]
    exact funext (block_value_b3 V c t)
  · have hi0 : (i 0).val < 8192 := (i 0).isLt
    have hi1 : (i 1).val < 400 := (i 1).isLt
    obtain ⟨t, ht⟩ : ∃ t : Fin cfg3.N, t.val = (i 0).val / 1024 := ⟨⟨(i 0).val / 1024, by show _ < grid3.N; rw [N_3]; omega⟩, rfl⟩
    obtain ⟨-, -, -, -, -, -, -, -, g0, g1⟩ := block_index_b3 t
    refine ⟨t, flush3_6 t, ?_⟩
    show i ∈ ((View.whole main_v180).slice (win3_6.rect t)).set
    rw [View.set_slice_whole, Rect.mem_set_unit]
    refine Fin.forall_fin_two.2 ⟨?_, ?_⟩
    · show win3_6.index t 0 * 1024 ≤ (i 0).val ∧ (i 0).val < win3_6.index t 0 * 1024 + 1024; omega
    · show win3_6.index t 1 * 400 ≤ (i 1).val ∧ (i 1).val < win3_6.index t 1 * 400 + 400; omega

end Cert.KernelIdeal.Val

end
-- ==== Proof.KI.ClfValue.lean ====
import proofs.«429333_j2637109920279_1_alg».proof.Proof.KI.Region4
import proofs.«429333_j2637109920279_1_alg».proof.Proof.KI.BlockValue0

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem clf_pay_apply (x0 : Vec Ideal S512x1600 .f32) (x1 : Vec Ideal S1600x1 .bf16) (x2 : Vec Ideal S1x1 .f32)
    (p : Fin 512) (q : Fin 1) :
    (k4_pay1 (F := Ideal) x0 x1 x2 : S512x1.Idx → EReal) (ix2 p q)
      = (∑ k : Fin 1600, (x0 (ix2 p k) : EReal) * (x1 (ix2 k q) : EReal)) + (x2 (ix2 0 q) : EReal) := by
  unfold k4_pay1
  rw [addf_apply]
  congr 1
  · refine (Cert.PlainDot.matmul_zero_apply (M := 512) (K := 1600) (N := 1) _ rfl none _ _ (ix2 p q)).trans ?_
    simp only [shapeCast_self]
    rfl
  · refine (broadcastTo_apply _ _ (ix2 p q) (ix2 0 q) fun a => ?_).trans (by rw [shapeCast_self])
    match a with
    | ⟨0, _⟩ => rfl
    | ⟨1, _⟩ => exact (Fin.val_eq_zero q).trans (if_pos rfl).symm

theorem index_facts4 : ∀ t : Fin cfg4.N, win4_0.index t (0 : Fin 2) = t.val ∧ win4_0.index t (1 : Fin 2) = 0
    ∧ (∀ a, win4_1.index t a = 0) ∧ (∀ a, win4_2.index t a = 0)
    ∧ win4_3.index t (0 : Fin 2) = t.val ∧ win4_3.index t (1 : Fin 2) = 0 :=
  (by decide +kernel : ∀ t : Fin grid4.N, _)

theorem clf_value (c : Dev nD) (t : Fin cfg4.N) (p : Fin 512) (q : Fin 1) :
    (k4_pay1 (F := Ideal) (iblk4 V c 0 t) (iblk4 V c 1 t) (iblk4 V c 2 t) : S512x1.Idx → EReal) (ix2 p q)
      = Cert.Spec.clfFn (M := 8192) (V c main_v185) (V c main_v186) (V c main_v187) (((cfg4.win 3).blk t).view.emb (ix2 p q)) := by
  obtain ⟨e0, e1, r1, r2, g0, g1⟩ := index_facts4 t
  have h0 : ((((cfg4.win 3).blk t).view.emb (ix2 p q)) 0).val = t.val * 512 + p.val := g0 ▸ win4_3.rect_emb_val t (ix2 p q) 0
  have h1 : ((((cfg4.win 3).blk t).view.emb (ix2 p q)) 1).val = q.val := win4_3.rect_emb_val_of_index_zero t 1 g1 (ix2 p q)
  generalize ((cfg4.win 3).blk t).view.emb (ix2 p q) = i at h0 h1
  obtain rfl : i 1 = q := Fin.ext h1
  exact (clf_pay_apply _ _ _ p _).trans (congrArg₂ (· + ·) (Finset.sum_congr rfl fun k _ => congrArg₂ (· * ·)
    (congrArg (V c main_v185) (emb_eq win4_0 t _ _
      (Fin.forall_fin_two.2 ⟨e0 ▸ h0.symm, by rw [e1]; exact Nat.zero_add _⟩)))
    (congrArg (V c main_v186) (emb_self win4_1 t r1 (ix2 k (i 1)) (ix2 k (i 1)) fun _ => rfl)))
    (congrArg (V c main_v187) (emb_self win4_2 t r2 (ix2 0 (i 1)) (ix2 0 (i 1)) fun _ => rfl)))

theorem arrAt4 (c : Dev nD) :
    ((dat4 V c).arrAt 3 cfg4.N : S8192x1.Idx → EReal)
      = Cert.Spec.clfFn (M := 8192) (V c main_v185) (V c main_v186) (V c main_v187) := by
  refine (dat4 V c).arrAt_eq_of_cover 3 _ (fun t _ => ?_) fun i => ?_
  · show (cfg4.win 3).cut (grid4.coords t) ((dat4 V c).after 3 t) = _
    rw [after4_3]
    unfold out4_3
    rw [View.canon_unit_zero off_zero]
    simp only [ld_zero]
    funext y
    rw [eq_ix2 y]
    exact clf_value V c t _ _
  · have hi0 : (i 0).val < 8192 := (i 0).isLt
    have hi1 : (i 1).val < 1 := (i 1).isLt
    obtain ⟨t, ht⟩ : ∃ t : Fin cfg4.N, t.val = (i 0).val / 512 := ⟨⟨(i 0).val / 512, by show _ < grid4.N; rw [N_4]; omega⟩, rfl⟩
    obtain ⟨-, -, -, -, g0, g1⟩ := index_facts4 t
    refine ⟨t, flush4_3 t, ?_⟩
    show i ∈ ((View.whole main_v188).slice (win4_3.rect t)).set
    rw [View.set_slice_whole, Rect.mem_set_unit]
    refine Fin.forall_fin_two.2 ⟨?_, ?_⟩
    · show win4_3.index t 0 * 512 ≤ (i 0).val ∧ (i 0).val < win4_3.index t 0 * 512 + 512; omega
    · show win4_3.index t 1 * 1 ≤ (i 1).val ∧ (i 1).val < win4_3.index t 1 * 1 + 1; omega

end Cert.KernelIdeal.Val

end
-- ==== Proof.RI.Stages.lean ====
import proofs.«429333_j2637109920279_1_alg».proof.Proof.RI.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ)

abbrev R0 (c : Dev nD) : Valuation τ sig (Elt F) := launchContents m c
abbrev R1 (c : Dev nD) : Valuation τ sig (Elt F) := after opsPre (R0 m c)
abbrev R2 (c : Dev nD) : Valuation τ sig (Elt F) := after opsB0 (R1 m c)
abbrev R3 (c : Dev nD) : Valuation τ sig (Elt F) := after opsB1 (R2 m c)
abbrev R4 (c : Dev nD) : Valuation τ sig (Elt F) := after opsB2 (R3 m c)
abbrev R5 (c : Dev nD) : Valuation τ sig (Elt F) := after opsB3 (R4 m c)
abbrev R6 (c : Dev nD) : Valuation τ sig (Elt F) := after opsTail (R5 m c)

theorem after_ops (c : Dev nD) : after (ops : List (HloOp τ sig (Elt F))) (launchContents m c) = R6 m c := by
  simp only [ops, after_append]

end Cert.ReferenceIdeal.RefRun

end
-- ==== Proof.RI.BlockRef.lean ====
import proofs.«429333_j2637109920279_1_alg».proof.ReferenceIdeal
import proofs.«429333_j2637109920279_1_alg».proof.Proof.Gen.ReferenceIdeal
import proofs.«429333_j2637109920279_1_alg».proof.Proof.Spec
import proofs.«429333_j2637109920279_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Cert.ReferenceIdeal Cert.ReferenceIdeal.Gen Idealize.ShloMosaic Idealize.ShloMosaic.ValueIdx

theorem bcastZero_apply {t : Shape} (h : S_.BroadcastsInDim t (![] : Fin 0 → Fin t.rank)) (j : t.Idx) :
    broadcastInDim t ![] h (constant (F := Ideal) S_ .f32 0x00000000#32) j = (0 : EReal) := by
  rw [broadcastInDim_apply ![] h _ j ix0 (fun a => a.elim0), constant_apply]
  exact Ideal.ofBits_zero_f32

theorem bcastRow_apply {M N : ℕ} (h : (⟨2, ![1, N]⟩ : Shape).BroadcastsInDim ⟨2, ![M, N]⟩ (![0, 1] : Fin 2 → Fin 2))
    (b : (⟨2, ![1, N]⟩ : Shape).Idx → EReal) (j : (⟨2, ![M, N]⟩ : Shape).Idx) (hN : N ≠ 1) :
    broadcastInDim ⟨2, ![M, N]⟩ ![0, 1] h b j = b (ix2 0 (j 1)) := by
  refine broadcastInDim_apply ![0, 1] h b j (ix2 0 (j 1)) (fun a => ?_)
  match a with
  | ⟨0, _⟩ => exact (if_pos rfl).symm
  | ⟨1, _⟩ => exact (if_neg hN).symm

-- A block of the reference at any widths: each product is a plain sum over the contracted index, the clip at the broadcast zero is `max · 0`, the bias row is read in the entry's column.
theorem refBlock_eq {M K1 K2 : ℕ} (hz : S_.BroadcastsInDim ⟨2, ![M, 400]⟩ ![]) (hb : (⟨2, ![1, 400]⟩ : Shape).BroadcastsInDim ⟨2, ![M, 400]⟩ ![0, 1])
    (x1 : FVec Ideal ⟨2, ![M, K1]⟩ .f32) (x2 : FVec Ideal ⟨2, ![M, K2]⟩ .f32) (p1 : FVec Ideal ⟨2, ![K1, 400]⟩ .f32)
    (p2 : FVec Ideal ⟨2, ![K2, 400]⟩ .f32) (w : FVec Ideal S400x400 .f32) (b : FVec Ideal S1x400 .f32) :
    addf (Host.dotGeneral (.plain M 400 400) none (maximumf (addf (Host.dotGeneral (.plain M K1 400) none x1 p1)
        (Host.dotGeneral (.plain M K2 400) none x2 p2)) (broadcastInDim _ ![] hz (constant S_ .f32 0x00000000#32))) w)
      (broadcastInDim _ ![0, 1] hb b)
    = Cert.Spec.blockFn x1 x2 p1 p2 w b := by
  funext i
  unfold Cert.Spec.blockFn
  simp only [Host.dotGeneral]
  rw [addf_apply, Cert.PlainDot.dotGeneral_apply _ rfl, bcastRow_apply _ _ _ (by decide)]
  refine congrArg (· + b (ix2 0 (i 1))) (Finset.sum_congr rfl fun k _ => ?_)
  rw [maximumf_apply, addf_apply, Cert.PlainDot.dotGeneral_apply _ rfl, Cert.PlainDot.dotGeneral_apply _ rfl, bcastZero_apply]
  rfl

theorem refBlock0_eq (x1 : FVec Ideal S8192x208 .f32) (x2 : FVec Ideal S8192x416 .f32) (p1 : FVec Ideal S208x400 .f32)
    (p2 : FVec Ideal S416x400 .f32) (w : FVec Ideal S400x400 .f32) (b : FVec Ideal S1x400 .f32) :
    addf (Host.dotGeneral dot_S8192x400_S400x400_S8192x400_1_0_0_1_n_n none
        (maximumf (addf (Host.dotGeneral dot_S8192x208_S208x400_S8192x400_1_0_0_1_n_n none x1 p1)
            (Host.dotGeneral dot_S8192x416_S416x400_S8192x400_1_0_0_1_n_n none x2 p2))
          (broadcastInDim S8192x400 ![] bcast_S_S8192x400 (constant S_ .f32 0x00000000#32))) w)
      (broadcastInDim S8192x400 ![0, 1] bcast_S1x400_S8192x400_0_1 b)
    = Cert.Spec.blockFn (M := 8192) (K1 := 208) (K2 := 416) x1 x2 p1 p2 w b :=
  refBlock_eq _ _ x1 x2 p1 p2 w b

theorem refBlock1_eq (x1 : FVec Ideal S8192x416 .f32) (x2 : FVec Ideal S8192x400 .f32) (p1 : FVec Ideal S416x400 .f32)
    (p2 : FVec Ideal S400x400 .f32) (w : FVec Ideal S400x400 .f32) (b : FVec Ideal S1x400 .f32) :
    addf (Host.dotGeneral dot_S8192x400_S400x400_S8192x400_1_0_0_1_n_n none
        (maximumf (addf (Host.dotGeneral dot_S8192x416_S416x400_S8192x400_1_0_0_1_n_n none x1 p1)
            (Host.dotGeneral dot_S8192x400_S400x400_S8192x400_1_0_0_1_n_n none x2 p2))
          (broadcastInDim S8192x400 ![] bcast_S_S8192x400 (constant S_ .f32 0x00000000#32))) w)
      (broadcastInDim S8192x400 ![0, 1] bcast_S1x400_S8192x400_0_1 b)
    = Cert.Spec.blockFn (M := 8192) (K1 := 416) (K2 := 400) x1 x2 p1 p2 w b :=
  refBlock_eq _ _ x1 x2 p1 p2 w b

theorem refClf_eq (x : FVec Ideal S8192x1600 .f32) (w : FVec Ideal S1600x1 .f32) (b : FVec Ideal S1x1 .f32) :
    addf (Host.dotGeneral dot_S8192x1600_S1600x1_S8192x1_1_0_0_1_n_n none x w)
      (broadcastInDim S8192x1 ![0, 1] bcast_S1x1_S8192x1_0_1 b)
    = Cert.Spec.clfFn (M := 8192) x w b := by
  funext i
  unfold Cert.Spec.clfFn
  simp only [Host.dotGeneral]
  rw [addf_apply, Cert.PlainDot.dotGeneral_apply dot_S8192x1600_S1600x1_S8192x1_1_0_0_1_n_n rfl]
  refine congrArg ((∑ k : Fin 1600, x (ix2 (i 0) k) * w (ix2 k (i 1))) + ·) ?_
  refine broadcastInDim_apply ![0, 1] _ b i (ix2 0 (i 1)) (fun a => ?_)
  match a with
  | ⟨0, _⟩ => rfl
  | ⟨1, _⟩ => exact (Fin.val_eq_zero (i 1)).trans (if_pos rfl).symm

end Cert.ReferenceIdeal.RefVal

end
-- ==== Proof.Bridge.Basic.lean ====
import proofs.«429333_j2637109920279_1_alg».proof.Proof.KI.Ends
import proofs.«429333_j2637109920279_1_alg».proof.Proof.KI.BlockValue0
import proofs.«429333_j2637109920279_1_alg».proof.Proof.KI.BlockValue1
import proofs.«429333_j2637109920279_1_alg».proof.Proof.KI.BlockValue2
import proofs.«429333_j2637109920279_1_alg».proof.Proof.KI.BlockValue3
import proofs.«429333_j2637109920279_1_alg».proof.Proof.KI.ClfValue
import proofs.«429333_j2637109920279_1_alg».proof.Proof.RI.Stages
import proofs.«429333_j2637109920279_1_alg».proof.Proof.RI.BlockRef
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD) (b : Ref sig .tc)

abbrev S3 : Prop := b ∉ hostOps0_W ∧ b ∉ hostOps0_1_W ∧ b ∉ hostOps0_2_W
abbrev S5 : Prop := (∀ w, Pipeline.arrRef spec0 w ≠ b) ∧ b ∉ hostOps0_3_W ∧ S3 b
abbrev S7 : Prop := b ∉ hostOps1_W ∧ ∀ w, Pipeline.arrRef spec1 w ≠ b
abbrev S9 : Prop := b ∉ hostOps2_W ∧ ∀ w, Pipeline.arrRef spec2 w ≠ b
abbrev S11 : Prop := b ∉ hostOps3_W ∧ ∀ w, Pipeline.arrRef spec3 w ≠ b

-- A buffer named neither by a region's windows nor by the host stretch before it has the same contents after both.
theorem W7_W5 (h : S7 b := by decide) : W7 m c (Proc.devRef .tc b) = W5 m c (Proc.devRef .tc b) :=
  (W7_of_ne m c b h.2).trans (W6_of m c b h.1)
theorem W9_W7 (h : S9 b := by decide) : W9 m c (Proc.devRef .tc b) = W7 m c (Proc.devRef .tc b) :=
  (W9_of_ne m c b h.2).trans (W8_of m c b h.1)
theorem W11_W9 (h : S11 b := by decide) : W11 m c (Proc.devRef .tc b) = W9 m c (Proc.devRef .tc b) :=
  (W11_of_ne m c b h.2).trans (W10_of m c b h.1)

-- A buffer nothing has written yet still holds the launch memory.
theorem W3_launch (h : S3 b := by decide) : W3 m c (Proc.devRef .tc b) = m ((c : Thread nD τ).loc b) :=
  (W3_of m c b h.2.2).trans ((W2_of m c b h.2.1).trans (W1_of m c b h.1))
theorem W5_launch (h : S5 b := by decide) : W5 m c (Proc.devRef .tc b) = m ((c : Thread nD τ).loc b) :=
  (W5_of_ne m c b h.1).trans ((W4_of m c b h.2.1).trans (W3_launch m c b h.2.2))
theorem W7_launch (h : S7 b := by decide) (h' : S5 b := by decide) : W7 m c (Proc.devRef .tc b) = m ((c : Thread nD τ).loc b) :=
  (W7_W5 m c b h).trans (W5_launch m c b h')
theorem W9_launch (h : S9 b := by decide) (h' : S7 b := by decide) (h'' : S5 b := by decide) :
    W9 m c (Proc.devRef .tc b) = m ((c : Thread nD τ).loc b) :=
  (W9_W7 m c b h).trans (W7_launch m c b h' h'')
theorem W11_launch (h : S11 b := by decide) (h' : S9 b := by decide) (h'' : S7 b := by decide) (h''' : S5 b := by decide) :
    W11 m c (Proc.devRef .tc b) = m ((c : Thread nD τ).loc b) :=
  (W11_W9 m c b h).trans (W9_launch m c b h' h'' h''')

-- An array a region only reads has the same contents after the region.
theorem W5_in (w : Fin cfg0.W) (hin : (cfg0.win w).isOut = false) :
    W5 m c (Proc.devRef .tc (Pipeline.arrRef spec0 w)) = W4 m c (Proc.devRef .tc (Pipeline.arrRef spec0 w)) :=
  (W5_arr m c w).trans (((dat0 (V4 m) c).arrAt_in w hin cfg0.N).trans (A_eq0 (V4 m) c w))
theorem W7_in (w : Fin cfg1.W) (hin : (cfg1.win w).isOut = false) :
    W7 m c (Proc.devRef .tc (Pipeline.arrRef spec1 w)) = W6 m c (Proc.devRef .tc (Pipeline.arrRef spec1 w)) :=
  (W7_arr m c w).trans (((dat1 (V6 m) c).arrAt_in w hin cfg1.N).trans (A_eq1 (V6 m) c w))
theorem W9_in (w : Fin cfg2.W) (hin : (cfg2.win w).isOut = false) :
    W9 m c (Proc.devRef .tc (Pipeline.arrRef spec2 w)) = W8 m c (Proc.devRef .tc (Pipeline.arrRef spec2 w)) :=
  (W9_arr m c w).trans (((dat2 (V8 m) c).arrAt_in w hin cfg2.N).trans (A_eq2 (V8 m) c w))

-- The later blocks' two projections are the arguments in the narrow float type at every boundary.
theorem W5_v23 : W5 m c (Proc.devRef .tc main_v23) = truncf .bf16 (m ((c : Thread nD τ).loc main_arg4)) bitsLt_bf16_f32 := by
  rw [← W3_launch m c main_arg4]
  refine (W5_in m c 3 rfl).trans ?_
  show after hostOps0_3 (W3 m c) _ = _
  generalize W3 m c = V
  after_results_simp
theorem W5_v24 : W5 m c (Proc.devRef .tc main_v24) = truncf .bf16 (m ((c : Thread nD τ).loc main_arg5)) bitsLt_bf16_f32 := by
  rw [← W3_launch m c main_arg5]
  refine (W5_of_ne m c main_v24 (by decide)).trans ?_
  show after hostOps0_3 (W3 m c) _ = _
  generalize W3 m c = V
  after_results_simp
theorem W7_v23 : W7 m c (Proc.devRef .tc main_v23) = truncf .bf16 (m ((c : Thread nD τ).loc main_arg4)) bitsLt_bf16_f32 :=
  (W7_in m c 2 rfl).trans ((W6_of m c main_v23 (by decide)).trans (W5_v23 m c))
theorem W7_v24 : W7 m c (Proc.devRef .tc main_v24) = truncf .bf16 (m ((c : Thread nD τ).loc main_arg5)) bitsLt_bf16_f32 :=
  (W7_in m c 3 rfl).trans ((W6_of m c main_v24 (by decide)).trans (W5_v24 m c))
theorem W9_v23 : W9 m c (Proc.devRef .tc main_v23) = truncf .bf16 (m ((c : Thread nD τ).loc main_arg4)) bitsLt_bf16_f32 :=
  (W9_in m c 2 rfl).trans ((W8_of m c main_v23 (by decide)).trans (W7_v23 m c))
theorem W9_v24 : W9 m c (Proc.devRef .tc main_v24) = truncf .bf16 (m ((c : Thread nD τ).loc main_arg5)) bitsLt_bf16_f32 :=
  (W9_in m c 3 rfl).trans ((W8_of m c main_v24 (by decide)).trans (W7_v24 m c))

end Cert.KernelIdeal.Fr

namespace Cert.Bridge

open Idealize.ShloMosaic Idealize.ShloMosaic.TcCoe Idealize.ShloMosaic.ValueIdx Idealize.SL.Sem

-- A vector made a one-row matrix by broadcasting along a new leading axis or by reshaping: entry (0, q) is entry q either way.
theorem row_bcast_eq_cast {α : Type} {n : ℕ} (z : (⟨1, ![n]⟩ : Shape).Idx → α)
    (hb : (⟨1, ![n]⟩ : Shape).BroadcastsInDim ⟨2, ![1, n]⟩ ![1]) (hs : (⟨1, ![n]⟩ : Shape).ShapeCasts ⟨2, ![1, n]⟩) :
    broadcastInDim ⟨2, ![1, n]⟩ ![1] hb z = shapeCast ⟨2, ![1, n]⟩ z hs := by
  funext j
  rw [eq_ix2 j]
  refine (broadcastInDim_apply ![1] hb z _ (ix1 (j 1)) ?_).trans (shapeCast_a_1a_apply z hs (j 0) (j 1)).symm
  intro a
  match a with
  | ⟨0, _⟩ =>
    show (j 1).val = if n = 1 then 0 else (j 1).val
    split
    · have e : (j 1).val < n := (j 1).isLt
      omega
    · rfl

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

def Agree (m : KMem) (m' : RMem) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

end Cert.Bridge

end
-- ==== Proof.Bridge.Pre.lean ====
import proofs.«429333_j2637109920279_1_alg».proof.Proof.Bridge.Basic

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

variable (m : KMem) (m' : RMem)

-- The three arguments the embeddings and norms read are the same arrays in both launch memories.
theorem args012 (hag : Agree m m') (c : Dev Cert.KernelIdeal.nD) :
    R0 (F := Ideal) m' c (Proc.devRef .tc Cert.ReferenceIdeal.main_arg0) = W0 (F := Ideal) m c (Proc.devRef .tc Cert.KernelIdeal.main_arg0)
    ∧ R0 (F := Ideal) m' c (Proc.devRef .tc Cert.ReferenceIdeal.main_arg1) = W0 (F := Ideal) m c (Proc.devRef .tc Cert.KernelIdeal.main_arg1)
    ∧ R0 (F := Ideal) m' c (Proc.devRef .tc Cert.ReferenceIdeal.main_arg2) = W0 (F := Ideal) m c (Proc.devRef .tc Cert.KernelIdeal.main_arg2) :=
  let ⟨h0, h1, h2, _⟩ := hag c
  ⟨h0, h1, h2⟩

set_option maxHeartbeats 1000000 in
-- The two embeddings and the norms are made by the same operations of the same arguments in both programs.
theorem E16 (hag : Agree m m') (c : Dev Cert.KernelIdeal.nD) : (R1 (F := Ideal) m' c (Proc.devRef .tc Cert.ReferenceIdeal.main_v16) : Cert.KernelIdeal.S8192x208.Idx → EReal) = W4 (F := Ideal) m c (Proc.devRef .tc Cert.KernelIdeal.main_v16) := by
  obtain ⟨e0, -, e2⟩ := args012 m m' hag c
  rw [(W4_of m c Cert.KernelIdeal.main_v16 (by decide)).trans ((W3_of m c _ (by decide)).trans (W2_of m c _ (by decide)))]
  show after Cert.ReferenceIdeal.RefRun.opsPre (R0 m' c) (Proc.devRef .tc Cert.ReferenceIdeal.main_v16)
    = after Cert.KernelIdeal.Gen.hostOps0 (W0 m c) (Proc.devRef .tc Cert.KernelIdeal.main_v16)
  after_results_simp
  rw [e2, e0]
  rfl

set_option maxHeartbeats 1000000 in
theorem E17 (hag : Agree m m') (c : Dev Cert.KernelIdeal.nD) : (R1 (F := Ideal) m' c (Proc.devRef .tc Cert.ReferenceIdeal.main_v17) : Cert.KernelIdeal.S8192x416.Idx → EReal) = W4 (F := Ideal) m c (Proc.devRef .tc Cert.KernelIdeal.main_v17) := by
  obtain ⟨-, e1, e2⟩ := args012 m m' hag c
  rw [(W4_of m c Cert.KernelIdeal.main_v17 (by decide)).trans ((W3_of m c _ (by decide)).trans (W2_of m c _ (by decide)))]
  show after Cert.ReferenceIdeal.RefRun.opsPre (R0 m' c) (Proc.devRef .tc Cert.ReferenceIdeal.main_v17)
    = after Cert.KernelIdeal.Gen.hostOps0 (W0 m c) (Proc.devRef .tc Cert.KernelIdeal.main_v17)
  after_results_simp
  rw [e2, e1]
  rfl

set_option maxHeartbeats 1000000 in
theorem E20 (hag : Agree m m') (c : Dev Cert.KernelIdeal.nD) : (R1 (F := Ideal) m' c (Proc.devRef .tc Cert.ReferenceIdeal.main_v20) : Cert.KernelIdeal.S_.Idx → EReal) = W4 (F := Ideal) m c (Proc.devRef .tc Cert.KernelIdeal.main_v20) := by
  obtain ⟨e0, e1, e2⟩ := args012 m m' hag c
  show after Cert.ReferenceIdeal.RefRun.opsPre (R0 m' c) (Proc.devRef .tc Cert.ReferenceIdeal.main_v20)
    = after Cert.KernelIdeal.Gen.hostOps0_3 (W3 m c) (Proc.devRef .tc Cert.KernelIdeal.main_v20)
  after_results_simp
  rw [e2, e1, e0]
  rfl

end Cert.Bridge

end
-- ==== Proof.RI.StageFacts.lean ====
import proofs.«429333_j2637109920279_1_alg».proof.Proof.RI.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ)

-- A stage keeps a reference none of its operations writes.
theorem R2_of (c : Dev nD) (r : Ref sig .tc) (h : r ∉ opsB0_W) :
    R2 m c (Proc.devRef .tc r) = R1 m c (Proc.devRef .tc r) :=
  after_keeps pieces_writesOne.2.1 _ r (.inl h)
theorem R3_of (c : Dev nD) (r : Ref sig .tc) (h : r ∉ opsB1_W) :
    R3 m c (Proc.devRef .tc r) = R2 m c (Proc.devRef .tc r) :=
  after_keeps pieces_writesOne.2.2.1 _ r (.inl h)
theorem R4_of (c : Dev nD) (r : Ref sig .tc) (h : r ∉ opsB2_W) :
    R4 m c (Proc.devRef .tc r) = R3 m c (Proc.devRef .tc r) :=
  after_keeps pieces_writesOne.2.2.2.1 _ r (.inl h)
theorem R5_of (c : Dev nD) (r : Ref sig .tc) (h : r ∉ opsB3_W) :
    R5 m c (Proc.devRef .tc r) = R4 m c (Proc.devRef .tc r) :=
  after_keeps pieces_writesOne.2.2.2.2.1 _ r (.inl h)

-- The fourteen arguments hold the launch memory at every stage.
theorem R1_arg (c : Dev nD) (r : Ref sig .tc) (hr : r.idx.val < 14) :
    R1 m c (Proc.devRef .tc r) = m ((c.tc : Thread nD τ).loc r) :=
  after_keeps pieces_writesOne.1 _ r (.inr hr)
theorem R2_arg (c : Dev nD) (r : Ref sig .tc) (hr : r.idx.val < 14) :
    R2 m c (Proc.devRef .tc r) = m ((c.tc : Thread nD τ).loc r) :=
  (after_keeps pieces_writesOne.2.1 _ r (.inr hr)).trans (R1_arg m c r hr)
theorem R3_arg (c : Dev nD) (r : Ref sig .tc) (hr : r.idx.val < 14) :
    R3 m c (Proc.devRef .tc r) = m ((c.tc : Thread nD τ).loc r) :=
  (after_keeps pieces_writesOne.2.2.1 _ r (.inr hr)).trans (R2_arg m c r hr)
theorem R4_arg (c : Dev nD) (r : Ref sig .tc) (hr : r.idx.val < 14) :
    R4 m c (Proc.devRef .tc r) = m ((c.tc : Thread nD τ).loc r) :=
  (after_keeps pieces_writesOne.2.2.2.1 _ r (.inr hr)).trans (R3_arg m c r hr)
theorem R5_arg (c : Dev nD) (r : Ref sig .tc) (hr : r.idx.val < 14) :
    R5 m c (Proc.devRef .tc r) = m ((c.tc : Thread nD τ).loc r) :=
  (after_keeps pieces_writesOne.2.2.2.2.1 _ r (.inr hr)).trans (R4_arg m c r hr)

end Cert.ReferenceIdeal.RefRun

end
-- ==== Proof.Bridge.Blk0.lean ====
import proofs.«429333_j2637109920279_1_alg».proof.Proof.Bridge.Basic
import proofs.«429333_j2637109920279_1_alg».proof.Proof.RI.StageFacts

set_option maxRecDepth 16384

noncomputable section

namespace Cert.ReferenceIdeal.RefRun

open Cert.ReferenceIdeal Cert.ReferenceIdeal.Gen Cert.ReferenceIdeal.RefVal Idealize.ShloMosaic Idealize.ShloMosaic.TcCoe Idealize.SL.Sem Idealize.ShloMosaic.StableHlo

-- The reference's block-0 node: the block function of six of the piece's own buffers, scaled and shifted by two more.
theorem blk0_ref_node (V : Valuation τ sig (Elt Ideal)) :
    (after opsB0 V (Proc.devRef .tc main_v65) : S8192x400.Idx → EReal)
      = addf (F := Ideal) (φ := .f32) (mulf (F := Ideal) (φ := .f32) (broadcastInDim S8192x400 ![] bcast_S_S8192x400 (after opsB0 V (Proc.devRef .tc main_v57)))
            (Cert.Spec.blockFn (M := 8192) (K1 := 208) (K2 := 416) (after opsB0 V (Proc.devRef .tc main_v33)) (after opsB0 V (Proc.devRef .tc main_v43))
              (V (Proc.devRef .tc main_arg3)) (V (Proc.devRef .tc main_arg4)) (after opsB0 V (Proc.devRef .tc main_v49)) (after opsB0 V (Proc.devRef .tc main_v53))))
          (broadcastInDim S8192x400 ![] bcast_S_S8192x400 (after opsB0 V (Proc.devRef .tc main_v63))) := by
  rw [← refBlock0_eq]
  after_results_simp
  rfl

end Cert.ReferenceIdeal.RefRun

namespace Cert.KernelIdeal.Fr

open Cert.KernelIdeal Cert.KernelIdeal.Gen Idealize.ShloMosaic Idealize.ShloMosaic.TcCoe Idealize.SL.Sem Idealize.ShloMosaic.StableHlo

-- The kernel program's block-0 node: region 0's output scaled and shifted.
theorem blk0_ker_node {F : FTy → Type} [FloatOps F] (V : Valuation τ sig (Elt F)) :
    after hostOps1 V (Proc.devRef .tc main_v64)
      = addf (mulf (broadcastInDim S8192x400 ![] bcast_S_S8192x400 (V (Proc.devRef .tc main_v41))) (V (Proc.devRef .tc main_v60)))
          (broadcastInDim S8192x400 ![] bcast_S_S8192x400 (V (Proc.devRef .tc main_v45))) := by
  after_results

end Cert.KernelIdeal.Fr

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

section Cross

variable (V : Valuation Cert.ReferenceIdeal.τ Cert.ReferenceIdeal.sig (Elt Ideal)) (V' : Valuation Cert.KernelIdeal.τ Cert.KernelIdeal.sig (Elt Ideal))
  (h3 : V (Proc.devRef .tc Cert.ReferenceIdeal.main_arg3) = V' (Proc.devRef .tc Cert.KernelIdeal.main_arg3))
  (h4 : V (Proc.devRef .tc Cert.ReferenceIdeal.main_arg4) = V' (Proc.devRef .tc Cert.KernelIdeal.main_arg4))
  (h6 : V (Proc.devRef .tc Cert.ReferenceIdeal.main_arg6) = V' (Proc.devRef .tc Cert.KernelIdeal.main_arg6))
  (h7 : V (Proc.devRef .tc Cert.ReferenceIdeal.main_arg7) = V' (Proc.devRef .tc Cert.KernelIdeal.main_arg7))
  (h10 : V (Proc.devRef .tc Cert.ReferenceIdeal.main_arg10) = V' (Proc.devRef .tc Cert.KernelIdeal.main_arg10))
  (h16 : V (Proc.devRef .tc Cert.ReferenceIdeal.main_v16) = V' (Proc.devRef .tc Cert.KernelIdeal.main_v16))
  (h17 : V (Proc.devRef .tc Cert.ReferenceIdeal.main_v17) = V' (Proc.devRef .tc Cert.KernelIdeal.main_v17))

-- Each buffer the block reads is made by the same operations of equal arrays in both programs.
include h10 h16 in
theorem blk0_x1 : (after Cert.ReferenceIdeal.RefRun.opsB0 V (Proc.devRef .tc Cert.ReferenceIdeal.main_v33) : Cert.KernelIdeal.S8192x208.Idx → EReal)
    = after Cert.KernelIdeal.Gen.hostOps0_3 V' (Proc.devRef .tc Cert.KernelIdeal.main_v49) := by
  after_results_simp
  rw [h10, h16]
  rfl

include h10 h17 in
theorem blk0_x2 : (after Cert.ReferenceIdeal.RefRun.opsB0 V (Proc.devRef .tc Cert.ReferenceIdeal.main_v43) : Cert.KernelIdeal.S8192x416.Idx → EReal)
    = after Cert.KernelIdeal.Gen.hostOps0_3 V' (Proc.devRef .tc Cert.KernelIdeal.main_v53) := by
  after_results_simp
  rw [h10, h17]
  rfl

include h10 in
theorem blk0_s1 : (after Cert.ReferenceIdeal.RefRun.opsB0 V (Proc.devRef .tc Cert.ReferenceIdeal.main_v57) : Cert.KernelIdeal.S_.Idx → EReal)
    = after Cert.KernelIdeal.Gen.hostOps0_3 V' (Proc.devRef .tc Cert.KernelIdeal.main_v41) := by
  after_results_simp
  rw [h10]
  rfl

include h10 in
theorem blk0_s2 : (after Cert.ReferenceIdeal.RefRun.opsB0 V (Proc.devRef .tc Cert.ReferenceIdeal.main_v63) : Cert.KernelIdeal.S_.Idx → EReal)
    = after Cert.KernelIdeal.Gen.hostOps0_3 V' (Proc.devRef .tc Cert.KernelIdeal.main_v45) := by
  after_results_simp
  rw [h10]
  rfl

include h3 in
theorem blk0_p1 : (V (Proc.devRef .tc Cert.ReferenceIdeal.main_arg3) : Cert.KernelIdeal.S208x400.Idx → EReal)
    = after Cert.KernelIdeal.Gen.hostOps0_3 V' (Proc.devRef .tc Cert.KernelIdeal.main_v22) := by
  after_results_simp
  rw [h3]
  rfl

include h4 in
theorem blk0_p2 : (V (Proc.devRef .tc Cert.ReferenceIdeal.main_arg4) : Cert.KernelIdeal.S416x400.Idx → EReal)
    = after Cert.KernelIdeal.Gen.hostOps0_3 V' (Proc.devRef .tc Cert.KernelIdeal.main_v23) := by
  after_results_simp
  rw [h4]
  rfl

include h6 in
theorem blk0_w : (after Cert.ReferenceIdeal.RefRun.opsB0 V (Proc.devRef .tc Cert.ReferenceIdeal.main_v49) : Cert.KernelIdeal.S400x400.Idx → EReal)
    = after Cert.KernelIdeal.Gen.hostOps0_3 V' (Proc.devRef .tc Cert.KernelIdeal.main_v56) := by
  after_results_simp
  rw [h6]
  rfl

include h7 in
theorem blk0_b : (after Cert.ReferenceIdeal.RefRun.opsB0 V (Proc.devRef .tc Cert.ReferenceIdeal.main_v53) : (⟨2, ![1, 400]⟩ : Shape).Idx → EReal)
    = after Cert.KernelIdeal.Gen.hostOps0_3 V' (Proc.devRef .tc Cert.KernelIdeal.main_v59) := by
  after_results_simp
  rw [h7]
  exact row_bcast_eq_cast _ _ _

end Cross

variable (m : KMem) (m' : RMem)

-- Both nodes are the same scale and shift of the block function of buffers that agree one by one.
theorem E_blk0 (hag : Agree m m')
    (h16 : ∀ c : Dev Cert.KernelIdeal.nD, (R1 (F := Ideal) m' c (Proc.devRef .tc Cert.ReferenceIdeal.main_v16) : Cert.KernelIdeal.S8192x208.Idx → EReal) = W4 (F := Ideal) m c (Proc.devRef .tc Cert.KernelIdeal.main_v16))
    (h17 : ∀ c : Dev Cert.KernelIdeal.nD, (R1 (F := Ideal) m' c (Proc.devRef .tc Cert.ReferenceIdeal.main_v17) : Cert.KernelIdeal.S8192x416.Idx → EReal) = W4 (F := Ideal) m c (Proc.devRef .tc Cert.KernelIdeal.main_v17))
    (c : Dev Cert.KernelIdeal.nD) : (R2 (F := Ideal) m' c (Proc.devRef .tc Cert.ReferenceIdeal.main_v65) : Cert.KernelIdeal.S8192x400.Idx → EReal) = W6 (F := Ideal) m c (Proc.devRef .tc Cert.KernelIdeal.main_v64) := by
  obtain ⟨-, -, -, a3, a4, -, a6, a7, -, -, a10, -, -, -⟩ := hag c
  have e16 := (h16 c).trans (W4_of m c Cert.KernelIdeal.main_v16 (by decide))
  have e17 := (h17 c).trans (W4_of m c Cert.KernelIdeal.main_v17 (by decide))
  have b3 := ((R1_arg m' c Cert.ReferenceIdeal.main_arg3 (by decide)).trans a3).trans (W3_launch m c Cert.KernelIdeal.main_arg3).symm
  have b4 := ((R1_arg m' c Cert.ReferenceIdeal.main_arg4 (by decide)).trans a4).trans (W3_launch m c Cert.KernelIdeal.main_arg4).symm
  have b6 := ((R1_arg m' c Cert.ReferenceIdeal.main_arg6 (by decide)).trans a6).trans (W3_launch m c Cert.KernelIdeal.main_arg6).symm
  have b7 := ((R1_arg m' c Cert.ReferenceIdeal.main_arg7 (by decide)).trans a7).trans (W3_launch m c Cert.KernelIdeal.main_arg7).symm
  have b10 := ((R1_arg m' c Cert.ReferenceIdeal.main_arg10 (by decide)).trans a10).trans (W3_launch m c Cert.KernelIdeal.main_arg10).symm
  show (after Cert.ReferenceIdeal.RefRun.opsB0 (R1 (F := Ideal) m' c) (Proc.devRef .tc Cert.ReferenceIdeal.main_v65) : Cert.KernelIdeal.S8192x400.Idx → EReal)
    = after Cert.KernelIdeal.Gen.hostOps1 (W5 (F := Ideal) m c) (Proc.devRef .tc Cert.KernelIdeal.main_v64)
  rw [blk0_ref_node, blk0_ker_node, W5_of_ne m c Cert.KernelIdeal.main_v41 (by decide), W5_of_ne m c Cert.KernelIdeal.main_v45 (by decide),
    W5_main_v60 m c, arrAt0 (V4 m) c, blk0_s1 _ _ b10, blk0_s2 _ _ b10, blk0_x1 _ _ b10 e16, blk0_x2 _ _ b10 e17, blk0_p1 _ _ b3, blk0_p2 _ _ b4,
    blk0_w _ _ b6, blk0_b _ _ b7]

end Cert.Bridge

end
-- ==== Proof.Bridge.Blk1.lean ====
import proofs.«429333_j2637109920279_1_alg».proof.Proof.Bridge.Basic
import proofs.«429333_j2637109920279_1_alg».proof.Proof.RI.StageFacts

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

variable (m : KMem) (m' : RMem)

set_option maxHeartbeats 800000 in
-- Both programs scale and shift the block function of the same six arrays: evaluate both down to region 0's exit and compare.
theorem E_blk1 (hag : Agree m m')
    (h17 : ∀ c : Dev Cert.KernelIdeal.nD, (R1 (F := Ideal) m' c (Proc.devRef .tc Cert.ReferenceIdeal.main_v17) : Cert.KernelIdeal.S8192x416.Idx → EReal) = W4 (F := Ideal) m c (Proc.devRef .tc Cert.KernelIdeal.main_v17))
    (hprev : ∀ c : Dev Cert.KernelIdeal.nD, (R2 (F := Ideal) m' c (Proc.devRef .tc Cert.ReferenceIdeal.main_v65) : Cert.KernelIdeal.S8192x400.Idx → EReal) = W6 (F := Ideal) m c (Proc.devRef .tc Cert.KernelIdeal.main_v64))
    (c : Dev Cert.KernelIdeal.nD) : (R3 (F := Ideal) m' c (Proc.devRef .tc Cert.ReferenceIdeal.main_v110) : Cert.KernelIdeal.S8192x400.Idx → EReal) = W8 (F := Ideal) m c (Proc.devRef .tc Cert.KernelIdeal.main_v104) := by
  obtain ⟨-, -, -, -, h4, h5, h6, h7, -, -, -, h11, -, -⟩ := hag c
  have e17 := ((R2_of m' c _ (by decide)).trans (h17 c)).trans (W5_of_ne m c Cert.KernelIdeal.main_v17 (by decide)).symm
  have eprev := hprev c
  have e11 := ((R2_arg m' c _ (by decide)).trans h11).trans (W5_launch m c Cert.KernelIdeal.main_arg11).symm
  have e6 := ((R2_arg m' c _ (by decide)).trans h6).trans (W5_launch m c Cert.KernelIdeal.main_arg6).symm
  have e7 := ((R2_arg m' c _ (by decide)).trans h7).trans (W5_launch m c Cert.KernelIdeal.main_arg7).symm
  have e4 := (R2_arg m' c _ (by decide)).trans h4
  have e5 := (R2_arg m' c _ (by decide)).trans h5
  have k81 := W7_of_ne m c Cert.KernelIdeal.main_v81 (by decide)
  have k85 := W7_of_ne m c Cert.KernelIdeal.main_v85 (by decide)
  have k100 := (W7_main_v100 m c).trans (arrAt1 (V6 m) c)
  have k23 := W5_v23 m c
  have k24 := W5_v24 m c
  show after Cert.ReferenceIdeal.RefRun.opsB1 (R2 (F := Ideal) m' c) (Proc.devRef .tc Cert.ReferenceIdeal.main_v110)
    = after Cert.KernelIdeal.Gen.hostOps2 (W7 (F := Ideal) m c) (Proc.devRef .tc Cert.KernelIdeal.main_v104)
  generalize R2 (F := Ideal) m' c = V at e17 eprev e11 e4 e5 e6 e7 ⊢
  generalize W7 (F := Ideal) m c = U7 at k81 k85 k100 ⊢
  after_results_simp
  rw [k81, k85, k100, e17, eprev, e11, e4, e5, e6, e7]
  dsimp only [V6, W6]
  generalize W5 (F := Ideal) m c = U5 at k23 k24 ⊢
  after_results_simp
  rw [k23, k24]
  refine congrArg₂ addf (congrArg₂ mulf rfl ((refBlock1_eq _ _ _ _ _ _).trans ?_)) rfl
  exact congrArg (Cert.Spec.blockFn _ _ _ _ _) (row_bcast_eq_cast _ _ _)

end Cert.Bridge

end
-- ==== Proof.Bridge.Blk2.lean ====
import proofs.«429333_j2637109920279_1_alg».proof.Proof.Bridge.Basic
import proofs.«429333_j2637109920279_1_alg».proof.Proof.RI.StageFacts

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

variable (m : KMem) (m' : RMem)

set_option maxHeartbeats 800000 in
-- Both programs scale and shift the block function of the same six arrays: evaluate both down to region 1's exit and compare.
theorem E_blk2 (hag : Agree m m')
    (h17 : ∀ c : Dev Cert.KernelIdeal.nD, (R1 (F := Ideal) m' c (Proc.devRef .tc Cert.ReferenceIdeal.main_v17) : Cert.KernelIdeal.S8192x416.Idx → EReal) = W4 (F := Ideal) m c (Proc.devRef .tc Cert.KernelIdeal.main_v17))
    (hprev : ∀ c : Dev Cert.KernelIdeal.nD, (R3 (F := Ideal) m' c (Proc.devRef .tc Cert.ReferenceIdeal.main_v110) : Cert.KernelIdeal.S8192x400.Idx → EReal) = W8 (F := Ideal) m c (Proc.devRef .tc Cert.KernelIdeal.main_v104))
    (c : Dev Cert.KernelIdeal.nD) : (R4 (F := Ideal) m' c (Proc.devRef .tc Cert.ReferenceIdeal.main_v155) : Cert.KernelIdeal.S8192x400.Idx → EReal) = W10 (F := Ideal) m c (Proc.devRef .tc Cert.KernelIdeal.main_v144) := by
  obtain ⟨-, -, -, -, h4, h5, h6, h7, -, -, -, -, h12, -⟩ := hag c
  have e17 := ((R3_of m' c _ (by decide)).trans ((R2_of m' c _ (by decide)).trans (h17 c))).trans
    ((W7_W5 m c Cert.KernelIdeal.main_v17).trans (W5_of_ne m c _ (by decide))).symm
  have eprev := hprev c
  have e12 := ((R3_arg m' c _ (by decide)).trans h12).trans (W7_launch m c Cert.KernelIdeal.main_arg12).symm
  have e6 := ((R3_arg m' c _ (by decide)).trans h6).trans (W7_launch m c Cert.KernelIdeal.main_arg6).symm
  have e7 := ((R3_arg m' c _ (by decide)).trans h7).trans (W7_launch m c Cert.KernelIdeal.main_arg7).symm
  have e4 := (R3_arg m' c _ (by decide)).trans h4
  have e5 := (R3_arg m' c _ (by decide)).trans h5
  have k121 := W9_of_ne m c Cert.KernelIdeal.main_v121 (by decide)
  have k125 := W9_of_ne m c Cert.KernelIdeal.main_v125 (by decide)
  have k140 := (W9_main_v140 m c).trans (arrAt2 (V8 m) c)
  have k23 := W7_v23 m c
  have k24 := W7_v24 m c
  show after Cert.ReferenceIdeal.RefRun.opsB2 (R3 (F := Ideal) m' c) (Proc.devRef .tc Cert.ReferenceIdeal.main_v155)
    = after Cert.KernelIdeal.Gen.hostOps3 (W9 (F := Ideal) m c) (Proc.devRef .tc Cert.KernelIdeal.main_v144)
  generalize R3 (F := Ideal) m' c = V at e17 eprev e12 e4 e5 e6 e7 ⊢
  generalize W9 (F := Ideal) m c = U9 at k121 k125 k140 ⊢
  after_results_simp
  rw [k121, k125, k140, e17, eprev, e12, e4, e5, e6, e7]
  dsimp only [V8, W8]
  generalize W7 (F := Ideal) m c = U7 at k23 k24 ⊢
  after_results_simp
  rw [k23, k24]
  refine congrArg₂ addf (congrArg₂ mulf rfl ((refBlock1_eq _ _ _ _ _ _).trans ?_)) rfl
  exact congrArg (Cert.Spec.blockFn _ _ _ _ _) (row_bcast_eq_cast _ _ _)

end Cert.Bridge

end
-- ==== Proof.Bridge.Blk3.lean ====
import proofs.«429333_j2637109920279_1_alg».proof.Proof.Bridge.Basic
import proofs.«429333_j2637109920279_1_alg».proof.Proof.RI.StageFacts

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

variable (m : KMem) (m' : RMem)

set_option maxHeartbeats 800000 in
-- Both programs scale and shift the block function of the same six arrays: evaluate both down to region 2's exit and compare.
theorem E_blk3 (hag : Agree m m')
    (h17 : ∀ c : Dev Cert.KernelIdeal.nD, (R1 (F := Ideal) m' c (Proc.devRef .tc Cert.ReferenceIdeal.main_v17) : Cert.KernelIdeal.S8192x416.Idx → EReal) = W4 (F := Ideal) m c (Proc.devRef .tc Cert.KernelIdeal.main_v17))
    (hprev : ∀ c : Dev Cert.KernelIdeal.nD, (R4 (F := Ideal) m' c (Proc.devRef .tc Cert.ReferenceIdeal.main_v155) : Cert.KernelIdeal.S8192x400.Idx → EReal) = W10 (F := Ideal) m c (Proc.devRef .tc Cert.KernelIdeal.main_v144))
    (c : Dev Cert.KernelIdeal.nD) : (R5 (F := Ideal) m' c (Proc.devRef .tc Cert.ReferenceIdeal.main_v200) : Cert.KernelIdeal.S8192x400.Idx → EReal) = W12 (F := Ideal) m c (Proc.devRef .tc Cert.KernelIdeal.main_v184) := by
  obtain ⟨-, -, -, -, h4, h5, h6, h7, -, -, -, -, -, h13⟩ := hag c
  have e17 := ((R4_of m' c _ (by decide)).trans ((R3_of m' c _ (by decide)).trans ((R2_of m' c _ (by decide)).trans (h17 c)))).trans
    ((W9_W7 m c Cert.KernelIdeal.main_v17).trans ((W7_W5 m c Cert.KernelIdeal.main_v17).trans (W5_of_ne m c _ (by decide)))).symm
  have eprev := hprev c
  have e13 := ((R4_arg m' c _ (by decide)).trans h13).trans (W9_launch m c Cert.KernelIdeal.main_arg13).symm
  have e6 := ((R4_arg m' c _ (by decide)).trans h6).trans (W9_launch m c Cert.KernelIdeal.main_arg6).symm
  have e7 := ((R4_arg m' c _ (by decide)).trans h7).trans (W9_launch m c Cert.KernelIdeal.main_arg7).symm
  have e4 := (R4_arg m' c _ (by decide)).trans h4
  have e5 := (R4_arg m' c _ (by decide)).trans h5
  have k161 := W11_of_ne m c Cert.KernelIdeal.main_v161 (by decide)
  have k165 := W11_of_ne m c Cert.KernelIdeal.main_v165 (by decide)
  have k180 := (W11_main_v180 m c).trans (arrAt3 (V10 m) c)
  have k23 := W9_v23 m c
  have k24 := W9_v24 m c
  show after Cert.ReferenceIdeal.RefRun.opsB3 (R4 (F := Ideal) m' c) (Proc.devRef .tc Cert.ReferenceIdeal.main_v200)
    = after Cert.KernelIdeal.Gen.hostOps4 (W11 (F := Ideal) m c) (Proc.devRef .tc Cert.KernelIdeal.main_v184)
  generalize R4 (F := Ideal) m' c = V at e17 eprev e13 e4 e5 e6 e7 ⊢
  generalize W11 (F := Ideal) m c = U11 at k161 k165 k180 ⊢
  after_results_simp
  rw [k161, k165, k180, e17, eprev, e13, e4, e5, e6, e7]
  dsimp only [V10, W10]
  generalize W9 (F := Ideal) m c = U9 at k23 k24 ⊢
  after_results_simp
  rw [k23, k24]
  refine congrArg₂ addf (congrArg₂ mulf rfl ((refBlock1_eq _ _ _ _ _ _).trans ?_)) rfl
  exact congrArg (Cert.Spec.blockFn _ _ _ _ _) (row_bcast_eq_cast _ _ _)

end Cert.Bridge

end
-- ==== Proof.Bridge.Tail.lean ====
import proofs.«429333_j2637109920279_1_alg».proof.Proof.Bridge.Basic
import proofs.«429333_j2637109920279_1_alg».proof.Proof.RI.StageFacts

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

-- The reference's logits: the four nodes side by side, times the weights, plus the bias.
theorem tail_v205 {F : FTy → Type} [FloatOps F] (V : Valuation τ sig (Elt F)) :
    after opsTail V (Proc.devRef .tc main_v205)
      = addf (Host.dotGeneral dot_S8192x1600_S1600x1_S8192x1_1_0_0_1_n_n none
          (concatenate S8192x1600 1 [⟨S8192x400, V (Proc.devRef .tc main_v65)⟩, ⟨S8192x400, V (Proc.devRef .tc main_v110)⟩,
            ⟨S8192x400, V (Proc.devRef .tc main_v155)⟩, ⟨S8192x400, V (Proc.devRef .tc main_v200)⟩]
            concatenates_S8192x400_S8192x400_S8192x400_S8192x400_S8192x1600_d1)
          (V (Proc.devRef .tc main_arg8)))
        (broadcastInDim S8192x1 ![0, 1] bcast_S1x1_S8192x1_0_1
          (broadcastInDim S1x1 ![1] bcast_S1_S1x1_1 (V (Proc.devRef .tc main_arg9)))) := by
  after_results
  rfl

end Cert.ReferenceIdeal.RefRun

namespace Cert.KernelIdeal.Fr

open Cert.KernelIdeal Cert.KernelIdeal.Gen Idealize.ShloMosaic Idealize.ShloMosaic.TcCoe Idealize.SL.Sem Idealize.ShloMosaic.StableHlo

-- The kernel program's classifier input: the four nodes side by side.
theorem hostOps4_v185 {F : FTy → Type} [FloatOps F] (V : Valuation τ sig (Elt F)) :
    after hostOps4 V (Proc.devRef .tc main_v185)
      = concatenate S8192x1600 1 [⟨S8192x400, V (Proc.devRef .tc main_v64)⟩, ⟨S8192x400, V (Proc.devRef .tc main_v104)⟩,
          ⟨S8192x400, V (Proc.devRef .tc main_v144)⟩, ⟨S8192x400, after hostOps4 V (Proc.devRef .tc main_v184)⟩]
          concatenates_S8192x400_S8192x400_S8192x400_S8192x400_S8192x1600_d1 := by
  after_results
  rfl

end Cert.KernelIdeal.Fr

namespace Cert.Bridge

open Idealize.ShloMosaic Idealize.ShloMosaic.TcCoe Idealize.ShloMosaic.ValueIdx Idealize.SL.Sem Idealize.ShloMosaic.StableHlo
open Cert.KernelIdeal.Fr Cert.KernelIdeal.Val Cert.ReferenceIdeal.RefRun Cert.ReferenceIdeal.RefVal

variable (m : KMem) (m' : RMem)

-- The classifier of the four nodes side by side: evaluate both programs down to region 3's exit and compare.
theorem E_logits (hag : Agree m m')
    (h0 : ∀ c : Dev Cert.KernelIdeal.nD, (R2 (F := Ideal) m' c (Proc.devRef .tc Cert.ReferenceIdeal.main_v65) : Cert.KernelIdeal.S8192x400.Idx → EReal) = W6 (F := Ideal) m c (Proc.devRef .tc Cert.KernelIdeal.main_v64))
    (h1 : ∀ c : Dev Cert.KernelIdeal.nD, (R3 (F := Ideal) m' c (Proc.devRef .tc Cert.ReferenceIdeal.main_v110) : Cert.KernelIdeal.S8192x400.Idx → EReal) = W8 (F := Ideal) m c (Proc.devRef .tc Cert.KernelIdeal.main_v104))
    (h2 : ∀ c : Dev Cert.KernelIdeal.nD, (R4 (F := Ideal) m' c (Proc.devRef .tc Cert.ReferenceIdeal.main_v155) : Cert.KernelIdeal.S8192x400.Idx → EReal) = W10 (F := Ideal) m c (Proc.devRef .tc Cert.KernelIdeal.main_v144))
    (h3 : ∀ c : Dev Cert.KernelIdeal.nD, (R5 (F := Ideal) m' c (Proc.devRef .tc Cert.ReferenceIdeal.main_v200) : Cert.KernelIdeal.S8192x400.Idx → EReal) = W12 (F := Ideal) m c (Proc.devRef .tc Cert.KernelIdeal.main_v184))
    (c : Dev Cert.KernelIdeal.nD) : (R6 (F := Ideal) m' c (Proc.devRef .tc Cert.ReferenceIdeal.main_v205) : Cert.KernelIdeal.S8192x1.Idx → EReal) = W13 (F := Ideal) m c (Proc.devRef .tc Cert.KernelIdeal.main_v188) := by
  obtain ⟨-, -, -, -, -, -, -, -, h8, h9, -, -, -, -⟩ := hag c
  have e65 := ((R5_of m' c _ (by decide)).trans ((R4_of m' c _ (by decide)).trans ((R3_of m' c _ (by decide)).trans (h0 c)))).trans
    ((W11_W9 m c Cert.KernelIdeal.main_v64).trans ((W9_W7 m c Cert.KernelIdeal.main_v64).trans (W7_of_ne m c _ (by decide)))).symm
  have e110 := ((R5_of m' c _ (by decide)).trans ((R4_of m' c _ (by decide)).trans (h1 c))).trans
    ((W11_W9 m c Cert.KernelIdeal.main_v104).trans (W9_of_ne m c _ (by decide))).symm
  have e155 := ((R5_of m' c _ (by decide)).trans (h2 c)).trans (W11_of_ne m c Cert.KernelIdeal.main_v144 (by decide)).symm
  have e200 := h3 c
  have e8 := ((R5_arg m' c _ (by decide)).trans h8).trans (W11_launch m c Cert.KernelIdeal.main_arg8).symm
  have e9 := ((R5_arg m' c _ (by decide)).trans h9).trans (W11_launch m c Cert.KernelIdeal.main_arg9).symm
  rw [W13_main_v188, arrAt4 (V12 m) c]
  dsimp only [V12, W12] at e200 ⊢
  show after Cert.ReferenceIdeal.RefRun.opsTail (R5 (F := Ideal) m' c) (Proc.devRef .tc Cert.ReferenceIdeal.main_v205) = _
  rw [tail_v205, refClf_eq, hostOps4_v185, e65, e110, e155, e200, e8, e9]
  generalize W11 (F := Ideal) m c = U11
  after_results_simp
  exact congrArg (Cert.Spec.clfFn _ _) (row_bcast_eq_cast _ _ _)

-- The regularisation term: the same constant times the same sum of norms.
theorem E_regs (hag : Agree m m')
    (h20 : ∀ c : Dev Cert.KernelIdeal.nD, (R1 (F := Ideal) m' c (Proc.devRef .tc Cert.ReferenceIdeal.main_v20) : Cert.KernelIdeal.S_.Idx → EReal) = W4 (F := Ideal) m c (Proc.devRef .tc Cert.KernelIdeal.main_v20))
    (c : Dev Cert.KernelIdeal.nD) : (R6 (F := Ideal) m' c (Proc.devRef .tc Cert.ReferenceIdeal.main_v206) : Cert.KernelIdeal.S_.Idx → EReal) = W13 (F := Ideal) m c (Proc.devRef .tc Cert.KernelIdeal.main_v21) := by
  have e20 := (R5_of m' c _ (by decide)).trans ((R4_of m' c _ (by decide)).trans ((R3_of m' c _ (by decide)).trans ((R2_of m' c _ (by decide)).trans (h20 c))))
  rw [W13_main_v21]
  show after Cert.ReferenceIdeal.RefRun.opsTail (R5 (F := Ideal) m' c) (Proc.devRef .tc Cert.ReferenceIdeal.main_v206) = _
  generalize R5 (F := Ideal) m' c = V at e20 ⊢
  dsimp only [W4] at e20 ⊢
  generalize W3 (F := Ideal) m c = U3 at e20 ⊢
  after_results_simp
  rw [e20]
  after_results_simp

end Cert.Bridge

end
-- ==== Proof.lean ====
import proofs.«429333_j2637109920279_1_alg».proof.Defs
import proofs.«429333_j2637109920279_1_alg».proof.Proof.Gen.Kernel
import proofs.«429333_j2637109920279_1_alg».proof.Proof.Gen.KernelIdeal
import proofs.«429333_j2637109920279_1_alg».proof.Proof.Gen.ReferenceIdeal
import proofs.«429333_j2637109920279_1_alg».proof.Proof.Gen.Pre_finite_inputs
import proofs.«429333_j2637109920279_1_alg».proof.Proof.K.Frame
import proofs.«429333_j2637109920279_1_alg».proof.Proof.KI.Frame
import proofs.«429333_j2637109920279_1_alg».proof.Proof.RI.Run
import proofs.«429333_j2637109920279_1_alg».proof.Proof.Bridge.Pre
import proofs.«429333_j2637109920279_1_alg».proof.Proof.Bridge.Blk0
import proofs.«429333_j2637109920279_1_alg».proof.Proof.Bridge.Blk1
import proofs.«429333_j2637109920279_1_alg».proof.Proof.Bridge.Blk2
import proofs.«429333_j2637109920279_1_alg».proof.Proof.Bridge.Blk3
import proofs.«429333_j2637109920279_1_alg».proof.Proof.Bridge.Tail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ => Cert.ReferenceIdeal.RefRun.frame m ρ

-- The stage equalities chained: embeddings, then the four blocks, then the classifier; no operation writes an argument.
theorem algebraic : Cert.algebraic_KernelIdeal_ReferenceIdeal := by
  intro m ρ m' ρ' _ hag
  have h17 := Cert.Bridge.E17 m m' hag
  have hb0 := Cert.Bridge.E_blk0 m m' hag (Cert.Bridge.E16 m m' hag) h17
  have hb1 := Cert.Bridge.E_blk1 m m' hag h17 hb0
  have hb2 := Cert.Bridge.E_blk2 m m' hag h17 hb1
  have hb3 := Cert.Bridge.E_blk3 m m' hag h17 hb2
  refine ⟨fun c => Cert.KernelIdeal.Fr.W13 (F := Ideal) m c (Proc.devRef .tc Cert.KernelIdeal.main_v188),
    fun c => Cert.KernelIdeal.Fr.W13 (F := Ideal) m c (Proc.devRef .tc Cert.KernelIdeal.main_v21),
    Cert.KernelIdeal.Fr.run_results (F := Ideal) m ρ,
    (θ_run Cert.ReferenceIdeal.defs _ _).mono (fun r h c => ?_) (Cert.ReferenceIdeal.RefRun.run_all (F := Ideal) m' ρ')⟩
  have ho := fun b => (h c b).trans (congrFun (Cert.ReferenceIdeal.RefRun.after_ops m' c) _)
  refine ⟨(ho _).trans (Cert.Bridge.E_logits m m' hag hb0 hb1 hb2 hb3 c),
    (ho _).trans (Cert.Bridge.E_regs m m' hag (Cert.Bridge.E20 m m' hag) c), ?_⟩
  repeat' apply And.intro
  all_goals exact (h c _).trans (Cert.ReferenceIdeal.RefRun.after_arg _ _ (by decide))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
